-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S5000x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S2x1600000 : Shape := ⟨2, ![2, 1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg6 : FVec F S3x64 .f32) (main_arg11 : FVec F S64x10 .f32) (main_arg12 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x10 .f32 := Host.absf main_arg11
  let main_cst_20 : FVec F S_ .f32 := constant S_ .f32 0x7F800000#32
  let main_v55 : FVec F S64x10 .f32 := broadcastInDim S64x10 ![] bcast_S_S64x10 main_cst_20
  let main_v56 : IVec S64x10 1 := cmpf .olt main_v54 main_v55
  let main_c_21 : IVec S_ 1 := constantI S_ 1 1#1
  let main_v57 : IVec S_ 1 := (fun x v => Host.reduce IntOp.andi x v reducesTo_S64x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_cst_24 : FVec F S_ .f32 := constant S_ .f32 0x00000000#32
  let main_v64 : FVec F S3x64 .f32 := broadcastInDim S3x64 ![] bcast_S_S3x64 main_cst_24
  let main_v65 : IVec S3x64 1 := cmpf .oge main_arg6 main_v64
  let main_c_25 : IVec S_ 1 := constantI S_ 1 1#1
  let main_v66 : IVec S_ 1 := (fun x v => Host.reduce IntOp.andi x v reducesTo_S3x64_S_d0_1 h_S_) main_v65 main_c_25
  let main_v67 : IVec S_ 1 := andi main_v63 main_v66
  main_v67

def fn_part2 {F : FTy → Type} [FloatOps F] (main_arg6 : FVec F S3x64 .f32) (main_arg7 : FVec F S3x64x64 .f32) (main_arg8 : FVec F S3x64 .f32) (main_arg9 : FVec F S64x64 .f32) (main_arg10 : FVec F S64 .f32) (main_arg11 : FVec F S64x10 .f32) (main_arg12 : FVec F S10 .f32) (main_v33 : IVec S_ 1) : IVec S_ 1 :=
  let main_v34 : FVec F S3x64x64 .f32 := Host.absf main_arg7
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg8
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg6 main_arg11 main_arg12 main_v48 main_v49 main_v50

def fn_part1 {F : FTy → Type} [FloatOps F] (main_arg4 : FVec F S3x64 .f32) (main_arg5 : FVec F S3x64 .f32) (main_arg6 : FVec F S3x64 .f32) (main_arg7 : FVec F S3x64x64 .f32) (main_arg8 : FVec F S3x64 .f32) (main_arg9 : FVec F S64x64 .f32) (main_arg10 : FVec F S64 .f32) (main_arg11 : FVec F S64x10 .f32) (main_arg12 : FVec F S10 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg6 main_arg7 main_arg8 main_arg9 main_arg10 main_arg11 main_arg12 main_v33

def fn {F : FTy → Type} [FloatOps F] (main_arg0 : FVec F S100000x64 .f32) (main_arg1 : FVec F S3x64x64 .f32) (main_arg2 : FVec F S3x64 .f32) (main_arg3 : FVec F S3x64 .f32) (main_arg4 : FVec F S3x64 .f32) (main_arg5 : FVec F S3x64 .f32) (main_arg6 : FVec F S3x64 .f32) (main_arg7 : FVec F S3x64x64 .f32) (main_arg8 : FVec F S3x64 .f32) (main_arg9 : FVec F S64x64 .f32) (main_arg10 : FVec F S64 .f32) (main_arg11 : FVec F S64x10 .f32) (main_arg12 : FVec F S10 .f32) (main_arg13 : IVec S2x1600000 32) (main_arg14 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_arg6 main_arg7 main_arg8 main_arg9 main_arg10 main_arg11 main_arg12 main_v13 main_v16
-- ==== Kernel.lean ====
abbrev S100000x64 : Shape := ⟨2, ![100000, 64]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S1x64 : Shape := ⟨2, ![1, 64]⟩
abbrev S5000x64 : Shape := ⟨2, ![5000, 64]⟩
abbrev S1x10 : Shape := ⟨2, ![1, 10]⟩
abbrev S128x10 : Shape := ⟨2, ![128, 10]⟩
abbrev S5000x1 : Shape := ⟨2, ![5000, 1]⟩
abbrev S128x64 : Shape := ⟨2, ![128, 64]⟩
abbrev S5000x128 : Shape := ⟨2, ![5000, 128]⟩
abbrev S128 : Shape := ⟨1, ![128]⟩
abbrev S128x1 : Shape := ⟨2, ![128, 1]⟩

abbrev nBuf : Space → Nat
  | .hbm => 136
  | .vmem => 52
  | .smem => 0
  | _ => 0

abbrev hbmTy0_0 (i : Nat) : BufTy := match i % 128 with
  | 0 => ⟨S100000x64, .f32⟩
  | 1 => ⟨S3x64x64, .f32⟩
  | 2 => ⟨S3x64, .f32⟩
  | 3 => ⟨S3x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S64x64, .f32⟩
  | 10 => ⟨S64, .f32⟩
  | 11 => ⟨S64x10, .f32⟩
  | 12 => ⟨S10, .f32⟩
  | 13 => ⟨S2x1600000, .i32⟩
  | 14 => ⟨S100000, .i32⟩
  | 15 => ⟨S1x1600000, .i32⟩
  | 16 => ⟨S1600000, .i32⟩
  | 17 => ⟨S1x1600000, .i32⟩
  | 18 => ⟨S1600000, .i32⟩
  | 19 => ⟨S100000x64, .bf16⟩
  | 20 => ⟨S100000x1, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .bf16⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S1x64x64, .f32⟩
  | 36 => ⟨S64x64, .f32⟩
  | 37 => ⟨S1x64, .f32⟩
  | 38 => ⟨S64, .f32⟩
  | 39 => ⟨S1x64, .f32⟩
  | 40 => ⟨S64, .f32⟩
  | 41 => ⟨S1x64, .f32⟩
  | 42 => ⟨S64, .f32⟩
  | 43 => ⟨S1x64, .f32⟩
  | 44 => ⟨S64, .f32⟩
  | 45 => ⟨S1x64, .f32⟩
  | 46 => ⟨S64, .f32⟩
  | 47 => ⟨S1x64x64, .f32⟩
  | 48 => ⟨S64x64, .f32⟩
  | 49 => ⟨S1x64, .f32⟩
  | 50 => ⟨S64, .f32⟩
  | 51 => ⟨S1x64, .f32⟩
  | 52 => ⟨S1x64, .f32⟩
  | 53 => ⟨S1x64, .f32⟩
  | 54 => ⟨S1x64, .f32⟩
  | 55 => ⟨S1x64, .f32⟩
  | 56 => ⟨S1x64, .f32⟩
  | 57 => ⟨S100000x64, .f32⟩
  | 58 => ⟨S100000x64, .bf16⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .bf16⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S1x64x64, .f32⟩
  | 74 => ⟨S64x64, .f32⟩
  | 75 => ⟨S1x64, .f32⟩
  | 76 => ⟨S64, .f32⟩
  | 77 => ⟨S1x64, .f32⟩
  | 78 => ⟨S64, .f32⟩
  | 79 => ⟨S1x64, .f32⟩
  | 80 => ⟨S64, .f32⟩
  | 81 => ⟨S1x64, .f32⟩
  | 82 => ⟨S64, .f32⟩
  | 83 => ⟨S1x64, .f32⟩
  | 84 => ⟨S64, .f32⟩
  | 85 => ⟨S1x64x64, .f32⟩
  | 86 => ⟨S64x64, .f32⟩
  | 87 => ⟨S1x64, .f32⟩
  | 88 => ⟨S64, .f32⟩
  | 89 => ⟨S1x64, .f32⟩
  | 90 => ⟨S1x64, .f32⟩
  | 91 => ⟨S1x64, .f32⟩
  | 92 => ⟨S1x64, .f32⟩
  | 93 => ⟨S1x64, .f32⟩
  | 94 => ⟨S1x64, .f32⟩
  | 95 => ⟨S100000x64, .f32⟩
  | 96 => ⟨S100000x64, .bf16⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .bf16⟩
  | 106 => ⟨S1600000x64, .f32⟩
  | 107 => ⟨S_, .f32⟩
  | 108 => ⟨S100000x64, .f32⟩
  | 109 => ⟨S1600000x1, .i32⟩
  | 110 => ⟨S100000x64, .f32⟩
  | 111 => ⟨S1x64x64, .f32⟩
  | 112 => ⟨S64x64, .f32⟩
  | 113 => ⟨S1x64, .f32⟩
  | 114 => ⟨S64, .f32⟩
  | 115 => ⟨S1x64, .f32⟩
  | 116 => ⟨S64, .f32⟩
  | 117 => ⟨S1x64, .f32⟩
  | 118 => ⟨S64, .f32⟩
  | 119 => ⟨S1x64, .f32⟩
  | 120 => ⟨S64, .f32⟩
  | 121 => ⟨S1x64, .f32⟩
  | 122 => ⟨S64, .f32⟩
  | 123 => ⟨S1x64x64, .f32⟩
  | 124 => ⟨S64x64, .f32⟩
  | 125 => ⟨S1x64, .f32⟩
  | 126 => ⟨S64, .f32⟩
  | 127 => ⟨S1x64, .f32⟩
  | _ => ⟨S100000x64, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S1x10, .f32⟩
  | 7 => ⟨S128x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .bf16⟩
  | .local _ .vmem, ⟨15, _⟩ => ⟨S5000x64, .bf16⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .bf16⟩
  | .local _ .vmem, ⟨31, _⟩ => ⟨S5000x64, .bf16⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x1, .i32⟩
  | .local _ .vmem, ⟨37, _⟩ => ⟨S5000x1, .i32⟩
  | .local _ .vmem, ⟨38, _⟩ => ⟨S64x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S64x10, .f32⟩
  | .local _ .vmem, ⟨49, _⟩ => ⟨S1x10, .f32⟩
  | .local _ .vmem, ⟨50, _⟩ => ⟨S128x10, .f32⟩
  | .local _ .vmem, ⟨51, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev main_c_1 : Ref sig .tc := ⟨.hbm, 59, rfl⟩
abbrev main_v40 : Ref sig .tc := ⟨.hbm, 60, rfl⟩
abbrev main_v41 : Ref sig .tc := ⟨.hbm, 61, rfl⟩
abbrev main_c_2 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73_0 : Ref sig .tc := ⟨.hbm, 95, rfl⟩
abbrev main_v73_1 : Ref sig .tc := ⟨.hbm, 96, rfl⟩
abbrev main_c_4 : Ref sig .tc := ⟨.hbm, 97, rfl⟩
abbrev main_v74 : Ref sig .tc := ⟨.hbm, 98, rfl⟩
abbrev main_v75 : Ref sig .tc := ⟨.hbm, 99, rfl⟩
abbrev main_c_5 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_6 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg10_0 : Ref sig .tc := ⟨.vmem, 45, rfl⟩
abbrev cc2_stg11_0 : Ref sig .tc := ⟨.vmem, 46, rfl⟩
abbrev cc2_stg12_0 : Ref sig .tc := ⟨.vmem, 47, rfl⟩
abbrev cc2_stg13_0 : Ref sig .tc := ⟨.vmem, 48, rfl⟩
abbrev cc2_stg14_0 : Ref sig .tc := ⟨.vmem, 49, rfl⟩
abbrev cc2_stg15_0 : Ref sig .tc := ⟨.vmem, 50, rfl⟩
abbrev cc2_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc1_sem11_0 : DmaSem sig := 30
abbrev cc1_sem11_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem11_0 : DmaSem sig := 46
abbrev cc2_sem12_0 : DmaSem sig := 47
abbrev cc2_sem13_0 : DmaSem sig := 48
abbrev cc2_sem14_0 : DmaSem sig := 49
abbrev cc2_sem15_0 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S5000x64 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v67 : BitVec 1 := Scalar.cmpi .eq arg0 c19_i32
  let v68 : BitVec 32 := Scalar.extui v67
  let c0_i32_31 : BitVec 32 := 0#32
  let v69 : BitVec 1 := Scalar.cmpi .ne v68 c0_i32_31
  v69

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S64x10 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x10 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x10 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S10_S1x10 : S10.ShapeCasts S1x10
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  broadcasts_S1x64_S128x64 : S1x64.Broadcasts S128x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  h_S128x10 : 0 < S128x10.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S100000x64.size a
  hwx0_11 : ∀ i : grid0.Coords, EltTy.bits .bf16 = 32 ∨ (Rect.block (s := S100000x64) S5000x64.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S100000x64.size a
  hwx1_11 : ∀ i : grid1.Coords, EltTy.bits .bf16 = 32 ∨ (Rect.block (s := S100000x64) S5000x64.size (cc1_transform_11 i) (hinb1_11 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .i32 = 32 ∨ (Rect.block (s := S100000x1) S5000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x64.size a ≤ S64x64.size a
  hwx2_11 : ∀ i : grid2.Coords, EltTy.bits .f32 = 32 ∨ (Rect.block (s := S64x64) S64x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S64x10.size a ≤ S64x10.size a
  hwx2_13 : ∀ i : grid2.Coords, EltTy.bits .f32 = 32 ∨ (Rect.block (s := S64x10) S64x10.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x10.size a ≤ S1x10.size a
  hwx2_14 : ∀ i : grid2.Coords, EltTy.bits .f32 = 32 ∨ (Rect.block (s := S1x10) S1x10.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x10.size a ≤ S128x10.size a
  hwx2_15 : ∀ i : grid2.Coords, EltTy.bits .f32 = 32 ∨ (Rect.block (s := S128x10) S128x10.size (cc2_transform_15 i) (hinb2_15 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39_0) S5000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v39_1) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v39_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v69) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v70) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v71) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v64) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v72) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v73_0) S5000x64.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v73_1) S5000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v73_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v86) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v101) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v102) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v103) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v104) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v105) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v98) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v106) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg9) S64x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v107) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg11) S64x10.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v108) S1x10.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v109) S128x10.size cc2_transform_15 reads2_15 true true 1 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev idle2 : Fin 16 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k2_cond2 i == 1#1) | ⟨_ + 16, h⟩ => absurd h (Nat.not_lt.2 (Nat.le_add_left _ _))

class Facts : Prop extends Facts₀ where

variable [Facts]
-- ==== ReferenceIdeal.lean ====
abbrev S100000x64 : Shape := ⟨2, ![100000, 64]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S1x64 : Shape := ⟨2, ![1, 64]⟩
abbrev S128x64 : Shape := ⟨2, ![128, 64]⟩
abbrev S100000x1 : Shape := ⟨2, ![100000, 1]⟩
abbrev S128x10 : Shape := ⟨2, ![128, 10]⟩
abbrev S1x10 : Shape := ⟨2, ![1, 10]⟩
abbrev S128 : Shape := ⟨1, ![128]⟩
abbrev S128x1 : Shape := ⟨2, ![128, 1]⟩

abbrev nBuf : Space → Nat
  | .hbm => 220
  | .vmem => 0
  | .smem => 0
  | _ => 0

abbrev hbmTy0_0 (i : Nat) : BufTy := match i % 128 with
  | 0 => ⟨S100000x64, .f32⟩
  | 1 => ⟨S3x64x64, .f32⟩
  | 2 => ⟨S3x64, .f32⟩
  | 3 => ⟨S3x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S64x64, .f32⟩
  | 10 => ⟨S64, .f32⟩
  | 11 => ⟨S64x10, .f32⟩
  | 12 => ⟨S10, .f32⟩
  | 13 => ⟨S2x1600000, .i32⟩
  | 14 => ⟨S100000, .i32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S100000x64, .f32⟩
  | 33 => ⟨S1x64x64, .f32⟩
  | 34 => ⟨S64x64, .f32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S1x64, .f32⟩
  | 45 => ⟨S64, .f32⟩
  | 46 => ⟨S1x64, .f32⟩
  | 47 => ⟨S64, .f32⟩
  | 48 => ⟨S1x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S1x64, .f32⟩
  | 55 => ⟨S64, .f32⟩
  | 56 => ⟨S_, .f32⟩
  | 57 => ⟨S64, .f32⟩
  | 58 => ⟨S64, .f32⟩
  | 59 => ⟨S64, .f32⟩
  | 60 => ⟨S1x64, .f32⟩
  | 61 => ⟨S100000x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S1x64x64, .f32⟩
  | 69 => ⟨S64x64, .f32⟩
  | 70 => ⟨S100000x64, .f32⟩
  | 71 => ⟨S1x64, .f32⟩
  | 72 => ⟨S64, .f32⟩
  | 73 => ⟨S1x64, .f32⟩
  | 74 => ⟨S100000x64, .f32⟩
  | 75 => ⟨S100000x64, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x64, .f32⟩
  | 85 => ⟨S_, .f32⟩
  | 86 => ⟨S100000x64, .f32⟩
  | 87 => ⟨S1600000x1, .i32⟩
  | 88 => ⟨S100000x64, .f32⟩
  | 89 => ⟨S100000x64, .f32⟩
  | 90 => ⟨S1x64x64, .f32⟩
  | 91 => ⟨S64x64, .f32⟩
  | 92 => ⟨S100000x64, .f32⟩
  | 93 => ⟨S1x64, .f32⟩
  | 94 => ⟨S64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S1x64, .f32⟩
  | 102 => ⟨S64, .f32⟩
  | 103 => ⟨S1x64, .f32⟩
  | 104 => ⟨S64, .f32⟩
  | 105 => ⟨S1x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S1x64, .f32⟩
  | 112 => ⟨S64, .f32⟩
  | 113 => ⟨S_, .f32⟩
  | 114 => ⟨S64, .f32⟩
  | 115 => ⟨S64, .f32⟩
  | 116 => ⟨S64, .f32⟩
  | 117 => ⟨S1x64, .f32⟩
  | 118 => ⟨S100000x64, .f32⟩
  | 119 => ⟨S100000x64, .f32⟩
  | 120 => ⟨S1x64, .f32⟩
  | 121 => ⟨S64, .f32⟩
  | 122 => ⟨S1x64, .f32⟩
  | 123 => ⟨S100000x64, .f32⟩
  | 124 => ⟨S100000x64, .f32⟩
  | 125 => ⟨S1x64x64, .f32⟩
  | 126 => ⟨S64x64, .f32⟩
  | 127 => ⟨S100000x64, .f32⟩
  | _ => ⟨S100000x64, .f32⟩

abbrev hbmTy0_1 (i : Nat) : BufTy := match i % 128 with
  | 0 => ⟨S1x64, .f32⟩
  | 1 => ⟨S64, .f32⟩
  | 2 => ⟨S1x64, .f32⟩
  | 3 => ⟨S100000x64, .f32⟩
  | 4 => ⟨S100000x64, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S100000x64, .f32⟩
  | 19 => ⟨S1x64x64, .f32⟩
  | 20 => ⟨S64x64, .f32⟩
  | 21 => ⟨S100000x64, .f32⟩
  | 22 => ⟨S1x64, .f32⟩
  | 23 => ⟨S64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S1x64, .f32⟩
  | 31 => ⟨S64, .f32⟩
  | 32 => ⟨S1x64, .f32⟩
  | 33 => ⟨S64, .f32⟩
  | 34 => ⟨S1x64, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S1x64, .f32⟩
  | 41 => ⟨S64, .f32⟩
  | 42 => ⟨S_, .f32⟩
  | 43 => ⟨S64, .f32⟩
  | 44 => ⟨S64, .f32⟩
  | 45 => ⟨S64, .f32⟩
  | 46 => ⟨S1x64, .f32⟩
  | 47 => ⟨S100000x64, .f32⟩
  | 48 => ⟨S100000x64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S1x64x64, .f32⟩
  | 55 => ⟨S64x64, .f32⟩
  | 56 => ⟨S100000x64, .f32⟩
  | 57 => ⟨S1x64, .f32⟩
  | 58 => ⟨S64, .f32⟩
  | 59 => ⟨S1x64, .f32⟩
  | 60 => ⟨S100000x64, .f32⟩
  | 61 => ⟨S100000x64, .f32⟩
  | 62 => ⟨S_, .f32⟩
  | 63 => ⟨S128x64, .f32⟩
  | 64 => ⟨S100000x1, .i32⟩
  | 65 => ⟨S128x64, .f32⟩
  | 66 => ⟨S128x64, .f32⟩
  | 67 => ⟨S1x64, .f32⟩
  | 68 => ⟨S128x64, .f32⟩
  | 69 => ⟨S128x64, .f32⟩
  | 70 => ⟨S_, .f32⟩
  | 71 => ⟨S128x64, .f32⟩
  | 72 => ⟨S128x64, .f32⟩
  | 73 => ⟨S128x10, .f32⟩
  | 74 => ⟨S1x10, .f32⟩
  | 75 => ⟨S128x10, .f32⟩
  | 76 => ⟨S128x10, .f32⟩
  | 77 => ⟨S_, .f32⟩
  | 78 => ⟨S128, .f32⟩
  | 79 => ⟨S_, .f32⟩
  | 80 => ⟨S128, .f32⟩
  | 81 => ⟨S128, .f32⟩
  | 82 => ⟨S128x1, .f32⟩
  | 83 => ⟨S128x10, .f32⟩
  | 84 => ⟨S128x10, .f32⟩
  | 85 => ⟨S128x10, .f32⟩
  | 86 => ⟨S_, .f32⟩
  | 87 => ⟨S128, .f32⟩
  | 88 => ⟨S128x1, .f32⟩
  | 89 => ⟨S128x1, .f32⟩
  | 90 => ⟨S128x10, .f32⟩
  | 91 => ⟨S128x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_2 : Ref sig .tc := ⟨.hbm, 76, rfl⟩
abbrev main_v55 : Ref sig .tc := ⟨.hbm, 77, rfl⟩
abbrev main_v56 : Ref sig .tc := ⟨.hbm, 78, rfl⟩
abbrev main_c_3 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_4 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_5 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_c_6 : Ref sig .tc := ⟨.hbm, 133, rfl⟩
abbrev main_v106 : Ref sig .tc := ⟨.hbm, 134, rfl⟩
abbrev main_v107 : Ref sig .tc := ⟨.hbm, 135, rfl⟩
abbrev main_c_7 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_8 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_call2_cst : Ref sig .tc := ⟨.hbm, 155, rfl⟩
abbrev main_call2_v0 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_9 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_10 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_call3_cst : Ref sig .tc := ⟨.hbm, 198, rfl⟩
abbrev main_call3_v0 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_call4_cst : Ref sig .tc := ⟨.hbm, 205, rfl⟩
abbrev main_call4_v0 : Ref sig .tc := ⟨.hbm, 206, rfl⟩
abbrev main_call4_cst_0 : Ref sig .tc := ⟨.hbm, 207, rfl⟩
abbrev main_call4_v1 : Ref sig .tc := ⟨.hbm, 208, rfl⟩
abbrev main_call4_v2 : Ref sig .tc := ⟨.hbm, 209, rfl⟩
abbrev main_call4_v3 : Ref sig .tc := ⟨.hbm, 210, rfl⟩
abbrev main_call4_v4 : Ref sig .tc := ⟨.hbm, 211, rfl⟩
abbrev main_call4_v5 : Ref sig .tc := ⟨.hbm, 212, rfl⟩
abbrev main_call4_v6 : Ref sig .tc := ⟨.hbm, 213, rfl⟩
abbrev main_call4_cst_1 : Ref sig .tc := ⟨.hbm, 214, rfl⟩
abbrev main_call4_v7 : Ref sig .tc := ⟨.hbm, 215, rfl⟩
abbrev main_call4_v8 : Ref sig .tc := ⟨.hbm, 216, rfl⟩
abbrev main_call4_v9 : Ref sig .tc := ⟨.hbm, 217, rfl⟩
abbrev main_call4_v10 : Ref sig .tc := ⟨.hbm, 218, rfl⟩
abbrev main_v169 : Ref sig .tc := ⟨.hbm, 219, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S1x64_S128x64_0_1 : S1x64.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.LibOwns.lean ====
import Idealize.ShloMosaic.Lib.Pipeline.FrameBody
import Idealize.ShloMosaic.Lib.Pipeline.Value
import Idealize.ShloMosaic.Lib.Memref

namespace Idealize.ShloMosaic

open Idealize.SL Idealize.SL.BI Idealize.SL.RA Idealize.ShloMosaic.TcCoe
open scoped Idealize.SL.BI
open Idealize.SL.BI.BIBase Idealize.SL.BI.Laws Idealize.SL.ProofMode

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

theorem owns_isWhole {c : Dev nD} {sp : Space} {sh : Shape} {e : EltTy} {m : Memref sig .tc sp sh e} (h : m.IsWhole)
    (q : PosShare TreeShare) (X : sh.Idx → Val e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ : (m.view.loc (c : Thread nD τ) ↦[m.view.set]{q} h.unread X : sProp 𝕄) ⊢ owns (c : Thread nD τ) m q X := by
    unfold owns; iintro H; iexists _; isplitr; · ipureintro; exact h.read_unread X
    iexact H
  exact BI.equiv_iff.mp ⟨h₁, h₂⟩

theorem zeros2 : (![0, 0] : Fin 2 → Nat) = fun _ => 0 := funext fun a => by fin_cases a <;> rfl

/-- A piece over the rectangle that is the whole shape covers every index. -/
theorem cover_whole {Val : EltTy → Type} {S : Shape} {e : EltTy} {off : Fin S.rank → Nat} (h : off = fun _ => 0)
    (inb : ∀ a, off a + S.size a ≤ S.size a) (w : S.Idx → Val e) (L : List (View.Piece Val S e)) :
    ∀ z, ∃ p ∈ ((⟨Rect.unit off S.size inb, w⟩ : View.Piece Val S e) :: L), z ∈ p.1.set :=
  fun z => ⟨_, List.Mem.head _, View.mem_set_unit_zero h inb z⟩

end Idealize.ShloMosaic
-- ==== Proof.K_R0.lean ====
import proofs.«405115_j6640019439791_2_alg».proof.Proof.Gen.Kernel.Launch
import proofs.«405115_j6640019439791_2_alg».proof.Proof.Gen.Kernel.Skeleton
import proofs.«405115_j6640019439791_2_alg».proof.Proof.Gen.Kernel.Points
import proofs.«405115_j6640019439791_2_alg».proof.Proof.LibOwns
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_10 (x0 x1 : Vec F S5000x64 .f32) (x2 : Vec F S64x64 .f32) (x3 x4 x5 x6 x7 : Vec F S1x64 .f32) (x8 : Vec F S64x64 .f32) (x9 : Vec F S1x64 .f32) : Vec F S5000x64 .f32 := k0_pay1 (k0_pay3 x0 x1 x2 x3 x7 x4 x6 x5) (k0_pay4 x8) x9

def out0_11 (x0 x1 : Vec F S5000x64 .f32) (x2 : Vec F S64x64 .f32) (x3 x4 x5 x6 x7 : Vec F S1x64 .f32) (x8 : Vec F S64x64 .f32) (x9 : Vec F S1x64 .f32) : Vec F S5000x64 .bf16 := k0_pay2 (k0_pay3 x0 x1 x2 x3 x7 x4 x6 x5) (k0_pay4 x8) x9

theorem out0_10_eq (x0 x1 : Vec F S5000x64 .f32) (x2 : Vec F S64x64 .f32) (x3 x4 x5 x6 x7 : Vec F S1x64 .f32) (x8 : Vec F S64x64 .f32) (x9 : Vec F S1x64 .f32) : out0_10 x0 x1 x2 x3 x4 x5 x6 x7 x8 x9 = k0_pay1 (k0_pay3 x0 x1 x2 x3 x7 x4 x6 x5) (k0_pay4 x8) x9 := rfl

theorem out0_11_eq (x0 x1 : Vec F S5000x64 .f32) (x2 : Vec F S64x64 .f32) (x3 x4 x5 x6 x7 : Vec F S1x64 .f32) (x8 : Vec F S64x64 .f32) (x9 : Vec F S1x64 .f32) : out0_11 x0 x1 x2 x3 x4 x5 x6 x7 x8 x9 = k0_pay2 (k0_pay3 x0 x1 x2 x3 x7 x4 x6 x5) (k0_pay4 x8) x9 := rfl

set_option maxHeartbeats 1000000 in
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x64 .bf16) (harg12 : arg12.IsWhole)
    (x0 x1 : Vec F S5000x64 .f32) (x2 : Vec F S64x64 .f32) (x3 x4 x5 x6 x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 x0 x1 x2 x3 x4 x5 x6 x7 x8 x9) ∗ owns (c : Thread nD τ) arg12 fullShare (out0_11 x0 x1 x2 x3 x4 x5 x6 x7 x8 x9)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12) K := by
  simp only [cc0__mlp_kernel_eq_skeleton]; unfold cc0__mlp_kernel_skel
  simp only [owns_isWhole harg1, owns_isWhole harg2, owns_isWhole harg3, owns_isWhole harg4, owns_isWhole harg5, owns_isWhole harg6, owns_isWhole harg7, owns_isWhole harg8, owns_isWhole harg9, owns_isWhole harg10]
  unfold owns
  iintro ⟨H0, H1, H2, H3, H4, H5, H6, H7, H8, H9, ⟨%d10, %f10, -, H10⟩, ⟨%d11, %f11, -, H11⟩, Hk⟩
  sl_exec
  sl_step
  iapply Hk
  iframe H0 H1 H2 H3 H4 H5 H6 H7 H8 H9
  isplitl [H10]
  · iexists _; isplitr
    swap; · iexact H10
    ipureintro
    sl_unfold_run_names
    rw [View.read_writes_eq_canon _ _ _ (cover_whole zeros2 _ _ _), View.canon_unit_zero zeros2]
    simp only [View.readAt_eq_ld, Memref.IsWhole.read_unread, View.ld_unit_zero (S := S5000x64) zeros2, View.ld_unit_zero (S := S64x64) zeros2, View.ld_unit_zero (S := S1x64) zeros2]
    rfl
  iexists _; isplitr
  swap; · iexact H11
  ipureintro
  sl_unfold_run_names
  rw [View.read_writes_eq_canon _ _ _ (cover_whole zeros2 _ _ _), View.canon_unit_zero zeros2]
  simp only [View.readAt_eq_ld, Memref.IsWhole.read_unread, View.ld_unit_zero (S := S5000x64) zeros2, View.ld_unit_zero (S := S64x64) zeros2, View.ld_unit_zero (S := S1x64) zeros2]
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d
theorem before0_7 (c : Dev nD) (t : Fin cfg0.N) (d) : (dat0 V c).before 7 t d = iblk0 V c 7 t :=
  (dat0 V c).before_in_eq_fetched 7 rfl (fun _ => rfl) (fun _ _ _ => rfl) (fun _ => rfl) t d
theorem before0_8 (c : Dev nD) (t : Fin cfg0.N) (d) : (dat0 V c).before 8 t d = iblk0 V c 8 t :=
  (dat0 V c).before_in_eq_fetched 8 rfl (fun _ => rfl) (fun _ _ _ => rfl) (fun _ => rfl) t d
theorem before0_9 (c : Dev nD) (t : Fin cfg0.N) (d) : (dat0 V c).before 9 t d = iblk0 V c 9 t :=
  (dat0 V c).before_in_eq_fetched 9 rfl (fun _ => rfl) (fun _ _ _ => rfl) (fun _ => rfl) t d

set_option maxHeartbeats 1000000 in
theorem body_obligation0 (c : Dev nD) : BodyObligation (dat0 (F := F) V c) (defs₀ (F := F)) Variants.none () Set.univ := fun t => by
  rw [bigSep_W0, bigSep_W0]
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro H
  isplitl [HΦ]; · iexact HΦ
  isplitl [Ho]; · iexact Ho
  iexact H

end Cert.Kernel.Hand
-- ==== Proof.K_R1.lean ====
import proofs.«405115_j6640019439791_2_alg».proof.Proof.Gen.Kernel.Launch
import proofs.«405115_j6640019439791_2_alg».proof.Proof.Gen.Kernel.Skeleton
import proofs.«405115_j6640019439791_2_alg».proof.Proof.Gen.Kernel.Points
import proofs.«405115_j6640019439791_2_alg».proof.Proof.LibOwns
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_10 (x0 x1 : Vec F S5000x64 .f32) (x2 : Vec F S64x64 .f32) (x3 x4 x5 x6 x7 : Vec F S1x64 .f32) (x8 : Vec F S64x64 .f32) (x9 : Vec F S1x64 .f32) : Vec F S5000x64 .f32 := k1_pay1 (k1_pay3 x0 x1 x2 x3 x7 x4 x6 x5) (k1_pay4 x8) x9

def out1_11 (x0 x1 : Vec F S5000x64 .f32) (x2 : Vec F S64x64 .f32) (x3 x4 x5 x6 x7 : Vec F S1x64 .f32) (x8 : Vec F S64x64 .f32) (x9 : Vec F S1x64 .f32) : Vec F S5000x64 .bf16 := k1_pay2 (k1_pay3 x0 x1 x2 x3 x7 x4 x6 x5) (k1_pay4 x8) x9

theorem out1_10_eq (x0 x1 : Vec F S5000x64 .f32) (x2 : Vec F S64x64 .f32) (x3 x4 x5 x6 x7 : Vec F S1x64 .f32) (x8 : Vec F S64x64 .f32) (x9 : Vec F S1x64 .f32) : out1_10 x0 x1 x2 x3 x4 x5 x6 x7 x8 x9 = k1_pay1 (k1_pay3 x0 x1 x2 x3 x7 x4 x6 x5) (k1_pay4 x8) x9 := rfl

theorem out1_11_eq (x0 x1 : Vec F S5000x64 .f32) (x2 : Vec F S64x64 .f32) (x3 x4 x5 x6 x7 : Vec F S1x64 .f32) (x8 : Vec F S64x64 .f32) (x9 : Vec F S1x64 .f32) : out1_11 x0 x1 x2 x3 x4 x5 x6 x7 x8 x9 = k1_pay2 (k1_pay3 x0 x1 x2 x3 x7 x4 x6 x5) (k1_pay4 x8) x9 := rfl

set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x64 .bf16) (harg12 : arg12.IsWhole)
    (x0 x1 : Vec F S5000x64 .f32) (x2 : Vec F S64x64 .f32) (x3 x4 x5 x6 x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3 x4 x5 x6 x7 x8 x9) ∗ owns (c : Thread nD τ) arg12 fullShare (out1_11 x0 x1 x2 x3 x4 x5 x6 x7 x8 x9)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10 arg11 harg11 arg12 harg12) K := by
  simp only [cc1__mlp_kernel_eq_skeleton]; unfold cc1__mlp_kernel_skel
  simp only [owns_isWhole harg1, owns_isWhole harg2, owns_isWhole harg3, owns_isWhole harg4, owns_isWhole harg5, owns_isWhole harg6, owns_isWhole harg7, owns_isWhole harg8, owns_isWhole harg9, owns_isWhole harg10]
  unfold owns
  iintro ⟨H0, H1, H2, H3, H4, H5, H6, H7, H8, H9, ⟨%d10, %f10, -, H10⟩, ⟨%d11, %f11, -, H11⟩, Hk⟩
  sl_exec
  sl_step
  iapply Hk
  iframe H0 H1 H2 H3 H4 H5 H6 H7 H8 H9
  isplitl [H10]
  · iexists _; isplitr
    swap; · iexact H10
    ipureintro
    sl_unfold_run_names
    rw [View.read_writes_eq_canon _ _ _ (cover_whole zeros2 _ _ _), View.canon_unit_zero zeros2]
    simp only [View.readAt_eq_ld, Memref.IsWhole.read_unread, View.ld_unit_zero (S := S5000x64) zeros2, View.ld_unit_zero (S := S64x64) zeros2, View.ld_unit_zero (S := S1x64) zeros2]
    rfl
  iexists _; isplitr
  swap; · iexact H11
  ipureintro
  sl_unfold_run_names
  rw [View.read_writes_eq_canon _ _ _ (cover_whole zeros2 _ _ _), View.canon_unit_zero zeros2]
  simp only [View.readAt_eq_ld, Memref.IsWhole.read_unread, View.ld_unit_zero (S := S5000x64) zeros2, View.ld_unit_zero (S := S64x64) zeros2, View.ld_unit_zero (S := S1x64) zeros2]
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d
theorem before1_9 (c : Dev nD) (t : Fin cfg1.N) (d) : (dat1 V c).before 9 t d = iblk1 V c 9 t :=
  (dat1 V c).before_in_eq_fetched 9 rfl (fun _ => rfl) (fun _ _ _ => rfl) (fun _ => rfl) t d

set_option maxHeartbeats 1000000 in
theorem body_obligation1 (c : Dev nD) : BodyObligation (dat1 (F := F) V c) (defs₀ (F := F)) Variants.none () Set.univ := fun t => by
  rw [bigSep_W1, bigSep_W1]
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro H
  isplitl [HΦ]; · iexact HΦ
  isplitl [Ho]; · iexact Ho
  iexact H

end Cert.Kernel.Hand
-- ==== Proof.K_R2.lean ====
import proofs.«405115_j6640019439791_2_alg».proof.Proof.Gen.Kernel.Launch
import proofs.«405115_j6640019439791_2_alg».proof.Proof.Gen.Kernel.Skeleton
import proofs.«405115_j6640019439791_2_alg».proof.Proof.Gen.Kernel.Points
import proofs.«405115_j6640019439791_2_alg».proof.Proof.LibOwns
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

abbrev isFirst (i : grid2.Coords) : Prop := (Scalar.cmpi .ne (Scalar.extui (Scalar.cmpi .eq (BitVec.ofNat 32 (i 0).val) 0#32)) 0#32) = 1#1

abbrev isLast (i : grid2.Coords) : Prop := k2_cond2 i = 1#1

theorem isFirst_iff : ∀ t : Fin cfg2.N, isFirst (grid2.coords t) ↔ t.val % 20 = 0 :=
  (by decide +kernel : ∀ t : Fin grid2.N, isFirst (grid2.coords t) ↔ t.val % 20 = 0)
theorem isLast_iff : ∀ t : Fin cfg2.N, isLast (grid2.coords t) ↔ t.val % 20 = 19 :=
  (by decide +kernel : ∀ t : Fin grid2.N, isLast (grid2.coords t) ↔ t.val % 20 = 19)

def poolStep (x0 x1 : Vec F S5000x64 .f32) (x2 : Vec F S5000x1 .i32) (x3 : Vec F S64x64 .f32)
    (x4 x5 x6 x7 x8 : Vec F S1x64 .f32) (x9 : Vec F S64x64 .f32) (x10 : Vec F S1x64 .f32)
    (a : Vec F S128x64 .f32) : Vec F S128x64 .f32 :=
  k2_pay1 (k2_pay4 x0 x1 x3 x4 x8 x5 x7) (k2_pay5 x6) x9 x10 x2 a

set_option maxHeartbeats 4000000 in
/-- One point of the third region, whichever of the first, a middle or the last point it is: the accumulator restarts from zero at the first point and the result array is written at the last. -/
theorem kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .i32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S64x10 .f32) (harg14 : arg14.IsWhole) (arg15 : Memref sig .tc .vmem S1x10 .f32) (harg15 : arg15.IsWhole) (arg16 : Memref sig .tc .vmem S128x10 .f32) (harg16 : arg16.IsWhole) (arg17 : Memref sig .tc .vmem S128x64 .f32) (harg17 : arg17.IsWhole)
    (h01 : ¬(isFirst i ∧ isLast i)) (x0 x1 : Vec F S5000x64 .f32) (x2 : Vec F S5000x1 .i32) (x3 : Vec F S64x64 .f32) (x4 x5 x6 x7 x8 : Vec F S1x64 .f32) (x9 : Vec F S64x64 .f32) (x10 : Vec F S1x64 .f32) (x11 : Vec F S64x64 .f32) (x12 : Vec F S1x64 .f32) (x13 : Vec F S64x10 .f32) (x14 : Vec F S1x10 .f32) (y : Vec F S128x10 .f32) (a : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare y ∗ owns (c : Thread nD τ) arg17 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ owns (c : Thread nD τ) arg16 fullShare (if isLast i then k2_pay2 (poolStep x0 x1 x2 x3 x4 x5 x6 x7 x8 x9 x10 (if isFirst i then k2_pay3 (F := F) else a)) x11 x12 x13 x14 else y)
            ∗ owns (c : Thread nD τ) arg17 fullShare (poolStep x0 x1 x2 x3 x4 x5 x6 x7 x8 x9 x10 (if isFirst i then k2_pay3 (F := F) else a))) -∗ K ⟨⟩))
      ⊢ wp frame (wpE (defs₀ (F := F)) Variants.none c none) E (cc2__last_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2__last_kernel_eq_skeleton]; unfold cc2__last_kernel_skel
  simp only [owns_isWhole harg1, owns_isWhole harg2, owns_isWhole harg3, owns_isWhole harg4, owns_isWhole harg5, owns_isWhole harg6, owns_isWhole harg7, owns_isWhole harg8, owns_isWhole harg9, owns_isWhole harg10, owns_isWhole harg11, owns_isWhole harg12, owns_isWhole harg13, owns_isWhole harg14, owns_isWhole harg15]
  unfold owns
  iintro ⟨H0, H1, H2, H3, H4, H5, H6, H7, H8, H9, H10, H11, H12, H13, H14, ⟨%f15, %hf15, H15⟩, ⟨%f16, %hf16, H16⟩, Hk⟩
  obtain rfl := harg16.eq_unread hf15; obtain rfl := harg17.eq_unread hf16
  by_cases hc0 : isFirst i <;> by_cases hc1 : isLast i
  · exact absurd ⟨hc0, hc1⟩ h01
  all_goals
    sl_exec (disch := first | exact hc0 | exact hc1)
    sl_step
    iapply Hk
    iframe H0 H1 H2 H3 H4 H5 H6 H7 H8 H9 H10 H11 H12 H13 H14
    isplitl [H15]
    · iexists _; isplitr
      swap; · iexact H15
      ipureintro
      first | rw [if_pos hc1] | rw [if_neg hc1]
      try first | rw [if_pos hc0] | rw [if_neg hc0]
      first
        | exact harg16.read_unread _
        | (
          sl_unfold_run_names
          rw [View.read_writes_eq_canon _ _ _ (cover_whole zeros2 _ _ _), View.canon_cons_unit_zero zeros2]
          simp only [View.readAt_eq_ld, Memref.IsWhole.read_unread, View.ld_unit_zero (S := S5000x64) zeros2, View.ld_unit_zero (S := S5000x1) zeros2, View.ld_unit_zero (S := S64x64) zeros2, View.ld_unit_zero (S := S1x64) zeros2, View.ld_unit_zero (S := S64x10) zeros2, View.ld_unit_zero (S := S1x10) zeros2, View.ld_unit_zero (S := S128x64) zeros2, View.ld_unit_zero (S := S128x10) zeros2, View.readCov_unit_zero (S := S128x64) _ zeros2]
          rfl)
    iexists _; isplitr
    swap; · iexact H16
    ipureintro
    first | rw [if_pos hc0] | rw [if_neg hc0]
    sl_unfold_run_names
    rw [View.read_writes_eq_canon _ _ _ (cover_whole zeros2 _ _ _), View.canon_cons_unit_zero zeros2]
    simp only [View.readAt_eq_ld, Memref.IsWhole.read_unread, View.ld_unit_zero (S := S5000x64) zeros2, View.ld_unit_zero (S := S5000x1) zeros2, View.ld_unit_zero (S := S64x64) zeros2, View.ld_unit_zero (S := S1x64) zeros2, View.ld_unit_zero (S := S64x10) zeros2, View.ld_unit_zero (S := S1x10) zeros2, View.ld_unit_zero (S := S128x64) zeros2, View.ld_unit_zero (S := S128x10) zeros2, View.readCov_unit_zero (S := S128x64) _ zeros2]
    rfl

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev blk2_0 (c : Dev nD) (t : Fin cfg2.N) : Vec F S5000x64 .f32 := iblk2 V c 0 t
abbrev blk2_1 (c : Dev nD) (t : Fin cfg2.N) : Vec F S5000x64 .f32 := iblk2 V c 1 t
abbrev blk2_2 (c : Dev nD) (t : Fin cfg2.N) : Vec F S5000x1 .i32 := iblk2 V c 2 t
abbrev blk2_3 (c : Dev nD) (t : Fin cfg2.N) : Vec F S64x64 .f32 := iblk2 V c 3 t
abbrev blk2_4 (c : Dev nD) (t : Fin cfg2.N) : Vec F S1x64 .f32 := iblk2 V c 4 t
abbrev blk2_5 (c : Dev nD) (t : Fin cfg2.N) : Vec F S1x64 .f32 := iblk2 V c 5 t
abbrev blk2_6 (c : Dev nD) (t : Fin cfg2.N) : Vec F S1x64 .f32 := iblk2 V c 6 t
abbrev blk2_7 (c : Dev nD) (t : Fin cfg2.N) : Vec F S1x64 .f32 := iblk2 V c 7 t
abbrev blk2_8 (c : Dev nD) (t : Fin cfg2.N) : Vec F S1x64 .f32 := iblk2 V c 8 t
abbrev blk2_9 (c : Dev nD) (t : Fin cfg2.N) : Vec F S64x64 .f32 := iblk2 V c 9 t
abbrev blk2_10 (c : Dev nD) (t : Fin cfg2.N) : Vec F S1x64 .f32 := iblk2 V c 10 t
abbrev blk2_11 (c : Dev nD) (t : Fin cfg2.N) : Vec F S64x64 .f32 := iblk2 V c 11 t
abbrev blk2_12 (c : Dev nD) (t : Fin cfg2.N) : Vec F S1x64 .f32 := iblk2 V c 12 t
abbrev blk2_13 (c : Dev nD) (t : Fin cfg2.N) : Vec F S64x10 .f32 := iblk2 V c 13 t
abbrev blk2_14 (c : Dev nD) (t : Fin cfg2.N) : Vec F S1x10 .f32 := iblk2 V c 14 t

def stepAt (c : Dev nD) (t : Fin cfg2.N) (a : Vec F S128x64 .f32) : Vec F S128x64 .f32 :=
  poolStep (blk2_0 V c t) (blk2_1 V c t) (blk2_2 V c t) (blk2_3 V c t) (blk2_4 V c t) (blk2_5 V c t) (blk2_6 V c t) (blk2_7 V c t) (blk2_8 V c t) (blk2_9 V c t) (blk2_10 V c t) a

def acc2 (c : Dev nD) : ℕ → Vec F S128x64 .f32
  | 0 => k2_pay3 (F := F)
  | n + 1 => if h : n < cfg2.N then stepAt V c ⟨n, h⟩ (acc2 c n) else acc2 c n

theorem acc2_zero (c : Dev nD) : acc2 V c 0 = k2_pay3 (F := F) := rfl

theorem acc2_succ (c : Dev nD) (t : Fin cfg2.N) : acc2 V c (t.val + 1) = stepAt V c t (acc2 V c t.val) := by
  obtain ⟨n, hn⟩ := t
  show acc2 V c (n + 1) = _
  rw [acc2, dif_pos hn]

/-- What a point finds in the accumulator, once the first point's restart is taken into account, is the fold so far. -/
theorem acc_in (c : Dev nD) (t : Fin cfg2.N) (a : Vec F S128x64 .f32) (ha : t.val ≠ 0 → a = acc2 V c t.val) :
    (if isFirst (grid2.coords t) then k2_pay3 (F := F) else a) = acc2 V c t.val := by
  have hN : t.val < 20 := lt_of_lt_of_eq t.isLt (show cfg2.N = 20 from N_2)
  by_cases h : isFirst (grid2.coords t)
  · rw [if_pos h, show t.val = 0 from by have := (isFirst_iff t).mp h; omega]; rfl
  · rw [if_neg h]; exact ha fun h0 => h ((isFirst_iff t).mpr (by omega))

abbrev pt19 : Fin cfg2.N := ⟨19, by decide⟩

def out2_15 (c : Dev nD) : Vec F S128x10 .f32 :=
  k2_pay2 (acc2 V c 20) (blk2_11 V c pt19) (blk2_12 V c pt19) (blk2_13 V c pt19) (blk2_14 V c pt19)

abbrev scM2 : Memref sig .tc .vmem S128x64 .f32 := Memref.whole cc2_scratch0

/-- Between points the scratch buffer holds the fold so far (anything before the first point). -/
def Phi2 (c : Dev nD) (n : ℕ) : sProp 𝕄 :=
  iprop(iprop((∃ d, ⌜n ≠ 0 → d = acc2 V c n⌝ ∗ owns (c : Thread nD τ) scM2 fullShare d)
      ∗ Pipeline.scopedRestBut (Ix := Unit) (Name := ℕ) (U := UR sig nD τ) (Lvl := ℕ) (Val := Elt F) spec2 c [cc2_scratch0])
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => out2_15 V c
    | ⟨_ + 16, h⟩ => absurd h (Nat.not_lt.2 (Nat.le_add_left _ _))
  Φ t := Phi2 V c t.val
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = out2_15 V c := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d
theorem before2_7 (c : Dev nD) (t : Fin cfg2.N) (d) : (dat2 V c).before 7 t d = iblk2 V c 7 t :=
  (dat2 V c).before_in_eq_fetched 7 rfl (fun _ => rfl) (fun _ _ _ => rfl) (fun _ => rfl) t d
theorem before2_8 (c : Dev nD) (t : Fin cfg2.N) (d) : (dat2 V c).before 8 t d = iblk2 V c 8 t :=
  (dat2 V c).before_in_eq_fetched 8 rfl (fun _ => rfl) (fun _ _ _ => rfl) (fun _ => rfl) t d
theorem before2_9 (c : Dev nD) (t : Fin cfg2.N) (d) : (dat2 V c).before 9 t d = iblk2 V c 9 t :=
  (dat2 V c).before_in_eq_fetched 9 rfl (fun _ => rfl) (fun _ _ _ => rfl) (fun _ => rfl) t d
theorem before2_10 (c : Dev nD) (t : Fin cfg2.N) (d) : (dat2 V c).before 10 t d = iblk2 V c 10 t :=
  (dat2 V c).before_in_eq_fetched 10 rfl (fun _ => rfl) (fun _ _ _ => rfl) (fun _ => rfl) t d
theorem before2_11 (c : Dev nD) (t : Fin cfg2.N) (d) : (dat2 V c).before 11 t d = iblk2 V c 11 t :=
  (dat2 V c).before_in_eq_fetched 11 rfl (fun _ => rfl) (fun _ _ _ => rfl) (fun _ => rfl) t d
theorem before2_12 (c : Dev nD) (t : Fin cfg2.N) (d) : (dat2 V c).before 12 t d = iblk2 V c 12 t :=
  (dat2 V c).before_in_eq_fetched 12 rfl (fun _ => rfl) (fun _ _ _ => rfl) (fun _ => rfl) t d
theorem before2_13 (c : Dev nD) (t : Fin cfg2.N) (d) : (dat2 V c).before 13 t d = iblk2 V c 13 t :=
  (dat2 V c).before_in_eq_fetched 13 rfl (fun _ => rfl) (fun _ _ _ => rfl) (fun _ => rfl) t d
theorem before2_14 (c : Dev nD) (t : Fin cfg2.N) (d) : (dat2 V c).before 14 t d = iblk2 V c 14 t :=
  (dat2 V c).before_in_eq_fetched 14 rfl (fun _ => rfl) (fun _ _ _ => rfl) (fun _ => rfl) t d

theorem idle2_15 : ∀ t : Fin cfg2.N, ¬isLast (grid2.coords t) → idle2 15 (grid2.coords t) = true := by decide +kernel
theorem noFlush2_15 : ∀ t : Fin cfg2.N, ¬isLast (grid2.coords t) → (win2 15).flush t = false := by decide +kernel
theorem live2_15 : ∀ t : Fin cfg2.N, isLast (grid2.coords t) → idle2 15 (grid2.coords t) = false := by decide +kernel

set_option maxHeartbeats 4000000 in
theorem body_obligation2 (c : Dev nD) : BodyObligation (dat2 (F := F) V c) (defs₀ (F := F)) Variants.none () Set.univ := fun t => by
  rw [bigSep_W2, bigSep_W2]
  simp only [before2_0, before2_1, before2_2, before2_3, before2_4, before2_5, before2_6, before2_7, before2_8, before2_9, before2_10, before2_11, before2_12, before2_13, before2_14]
  rw [show (dat2 V c).owesAt () t.succ = (dat2 V c).owesAt () t.castSucc from rfl,
    show (dat2 V c).Φ t.castSucc = Phi2 V c t.val from rfl, show (dat2 V c).Φ t.succ = Phi2 V c (t.val + 1) from rfl,
    after2_0, after2_1, after2_2, after2_3, after2_4, after2_5, after2_6, after2_7, after2_8, after2_9, after2_10, after2_11, after2_12, after2_13, after2_14]
  unfold Phi2
  iintro ⟨⟨⟨⟨%a, %ha, HS⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (kernel2 c Set.univ (grid2.coords t) _ _ _ _ _ _ _ _ _ _ _ _ _ _ _ _ _ _ _ _ _ _ _ _ _ _ _ _ _ _ _ _ _ _
    (fun h => by have := (isFirst_iff t).mp h.1; have := (isLast_iff t).mp h.2; omega) (blk2_0 V c t) (blk2_1 V c t) (blk2_2 V c t) (blk2_3 V c t) (blk2_4 V c t) (blk2_5 V c t) (blk2_6 V c t) (blk2_7 V c t) (blk2_8 V c t) (blk2_9 V c t) (blk2_10 V c t) (blk2_11 V c t) (blk2_12 V c t) (blk2_13 V c t) (blk2_14 V c t) _ a _)
  simp only [acc_in V c t a ha]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  iintro ⟨H0, H1, H2, H3, H4, H5, H6, H7, H8, H9, H10, H11, H12, H13, H14, H15, HS⟩
  isplitl [HS Hrest Hg]
  · isplitl [HS Hrest]
    · isplitl [HS]
      · iexists _; isplitr
        · ipureintro; exact fun _ => (acc2_succ V c t).symm
        iexact HS
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  by_cases h1 : isLast (grid2.coords t)
  · simp only [if_pos h1, live2_15 t h1, after2_15]
    obtain rfl : t = pt19 := Fin.ext (by have := (isLast_iff t).mp h1; have := lt_of_lt_of_eq t.isLt N_2; show t.val = 19; omega)
    iexact H15
  · simp only [if_neg h1, idle2_15 t h1, noFlush2_15 t h1]
    iexists _; iexact H15

theorem hin2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = Phi2 V c 0 from rfl, scopedRest2_split]; unfold Phi2; simp only [scM2, owns_whole]
  iintro ⟨Hp, ⟨%d, HS⟩, Hr⟩
  isplitr [Hp]
  · isplitl [HS]
    · iexists d; isplitr; · ipureintro; exact fun h => absurd rfl h
      iexact HS
    iexact Hr
  iexact Hp

theorem hout2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c (Fin.last cfg2.N).val from rfl, scopedRest2_split]; unfold Phi2; simp only [scM2, owns_whole]
  iintro ⟨⟨⟨%d, -, HS⟩, Hr⟩, Hp⟩
  isplitl [Hp]; · iexact Hp
  isplitl [HS]; · iexists d; iexact HS
  iexact Hr

end Region2

end Cert.Kernel.Hand

end
-- ==== Proof.K_Run.lean ====
import proofs.«405115_j6640019439791_2_alg».proof.Proof.Gen.Kernel.Launch
import proofs.«405115_j6640019439791_2_alg».proof.Proof.Gen.Kernel.Skeleton
import proofs.«405115_j6640019439791_2_alg».proof.Proof.Gen.Kernel.Points
import proofs.«405115_j6640019439791_2_alg».proof.Proof.Gen.Kernel.Regions
import proofs.«405115_j6640019439791_2_alg».proof.Proof.K_R0
import proofs.«405115_j6640019439791_2_alg».proof.Proof.K_R1
import proofs.«405115_j6640019439791_2_alg».proof.Proof.K_R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m) c)
    iintro ⟨Hp, -, Hr⟩
    isplitl [Hp]; · iexact Hp
    iexact Hr
  hout c := by
    rw [Pipeline.ownSems0_none]
    refine (hout2 (V5 m) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ (∃ r, prngReg c r) ∗ ∃ W, owes (c : Thread nD τ) (0 : CellTallies nD τ sig Unit) W) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.K_Chain.lean ====
import proofs.«405115_j6640019439791_2_alg».proof.Proof.K_Run

set_option maxRecDepth 16384

noncomputable section

namespace Cert.Kernel.HandValue

open Idealize.ShloMosaic Idealize.ShloMosaic.TcCoe
open Idealize.SL Idealize.SL.Sem
open Idealize.ShloMosaic.Pipeline (Dat)
open Cert.Kernel Cert.Kernel.Gen Cert.Kernel.Hand

variable {F : FTy → Type} [FloatOps F]
variable (m : (ℓ : Loc nD τ sig) → Buf (Elt F) ℓ) (c : Dev nD) (r : Ref sig .tc)

abbrev outs0 : List (Ref sig .tc) := [main_v39_0, main_v39_1]
abbrev outs1 : List (Ref sig .tc) := [main_v73_0, main_v73_1]
abbrev outs2 : List (Ref sig .tc) := [main_v109]

/-- A host stretch changes only the buffers its operations write; a region changes only its result arrays. -/
theorem W1_keep (h : r ∉ hostOps0_W := by decide) : W1 m c (Proc.devRef .tc r) = W0 m c (Proc.devRef .tc r) :=
  StableHlo.after_of_writes_sub hostOps0 _ hostOps0_writes h

theorem inputs0 : ∀ w : Fin cfg0.W, Pipeline.arrRef spec0 w ∉ outs0 → (cfg0.win w).isOut = false := by decide

theorem W2_keep (h : r ∉ outs0 := by decide) : W2 m c (Proc.devRef .tc r) = W1 m c (Proc.devRef .tc r) := by
  by_cases hw : ∃ w, Pipeline.arrRef spec0 w = r
  · obtain ⟨w, rfl⟩ := hw
    exact (W2_arr m c w).trans (((dat0 (Hand.V1 m) c).arrAt_in w (inputs0 w h) _).trans (A_eq0 (Hand.V1 m) c w))
  · exact W2_of_ne m c r fun w e => hw ⟨w, e⟩

theorem W3_keep (h : r ∉ hostOps1_W := by decide) : W3 m c (Proc.devRef .tc r) = W2 m c (Proc.devRef .tc r) :=
  StableHlo.after_of_writes_sub hostOps1 _ hostOps1_writes h

theorem inputs1 : ∀ w : Fin cfg1.W, Pipeline.arrRef spec1 w ∉ outs1 → (cfg1.win w).isOut = false := by decide

theorem W4_keep (h : r ∉ outs1 := by decide) : W4 m c (Proc.devRef .tc r) = W3 m c (Proc.devRef .tc r) := by
  by_cases hw : ∃ w, Pipeline.arrRef spec1 w = r
  · obtain ⟨w, rfl⟩ := hw
    exact (W4_arr m c w).trans (((dat1 (Hand.V3 m) c).arrAt_in w (inputs1 w h) _).trans (A_eq1 (Hand.V3 m) c w))
  · exact W4_of_ne m c r fun w e => hw ⟨w, e⟩

theorem W5_keep (h : r ∉ hostOps2_W := by decide) : W5 m c (Proc.devRef .tc r) = W4 m c (Proc.devRef .tc r) :=
  StableHlo.after_of_writes_sub hostOps2 _ hostOps2_writes h

theorem inputs2 : ∀ w : Fin cfg2.W, Pipeline.arrRef spec2 w ∉ outs2 → (cfg2.win w).isOut = false := by decide

theorem W6_keep (h : r ∉ outs2 := by decide) : W6 m c (Proc.devRef .tc r) = W5 m c (Proc.devRef .tc r) := by
  by_cases hw : ∃ w, Pipeline.arrRef spec2 w = r
  · obtain ⟨w, rfl⟩ := hw
    exact (W6_arr m c w).trans (((dat2 (Hand.V5 m) c).arrAt_in w (inputs2 w h) _).trans (A_eq2 (Hand.V5 m) c w))
  · exact W6_of_ne m c r fun w e => hw ⟨w, e⟩

/-- Nothing after the first host stretch writes `r`. -/
abbrev later : Prop := r ∉ outs0 ∧ r ∉ hostOps1_W ∧ r ∉ outs1 ∧ r ∉ hostOps2_W ∧ r ∉ outs2

theorem W2_of_W1 (h : later r := by decide) : W2 m c (Proc.devRef .tc r) = W1 m c (Proc.devRef .tc r) := W2_keep m c r h.1
theorem W3_of_W1 (h : later r := by decide) : W3 m c (Proc.devRef .tc r) = W1 m c (Proc.devRef .tc r) :=
  (W3_keep m c r h.2.1).trans (W2_of_W1 m c r h)
theorem W4_of_W1 (h : later r := by decide) : W4 m c (Proc.devRef .tc r) = W1 m c (Proc.devRef .tc r) :=
  (W4_keep m c r h.2.2.1).trans (W3_of_W1 m c r h)
theorem W5_of_W1 (h : later r := by decide) : W5 m c (Proc.devRef .tc r) = W1 m c (Proc.devRef .tc r) :=
  (W5_keep m c r h.2.2.2.1).trans (W4_of_W1 m c r h)
theorem W6_of_W1 (h : later r := by decide) : W6 m c (Proc.devRef .tc r) = W1 m c (Proc.devRef .tc r) :=
  (W6_keep m c r h.2.2.2.2).trans (W5_of_W1 m c r h)

theorem W1_launch (h1 : r ∉ hostOps0_W := by decide) : W1 m c (Proc.devRef .tc r) = m ((c : Thread nD τ).loc r) :=
  W1_keep m c r h1
theorem W2_launch (h1 : r ∉ hostOps0_W := by decide) (h : later r := by decide) : W2 m c (Proc.devRef .tc r) = m ((c : Thread nD τ).loc r) :=
  (W2_of_W1 m c r h).trans (W1_keep m c r h1)
theorem W3_launch (h1 : r ∉ hostOps0_W := by decide) (h : later r := by decide) : W3 m c (Proc.devRef .tc r) = m ((c : Thread nD τ).loc r) :=
  (W3_of_W1 m c r h).trans (W1_keep m c r h1)
theorem W4_launch (h1 : r ∉ hostOps0_W := by decide) (h : later r := by decide) : W4 m c (Proc.devRef .tc r) = m ((c : Thread nD τ).loc r) :=
  (W4_of_W1 m c r h).trans (W1_keep m c r h1)
theorem W5_launch (h1 : r ∉ hostOps0_W := by decide) (h : later r := by decide) : W5 m c (Proc.devRef .tc r) = m ((c : Thread nD τ).loc r) :=
  (W5_of_W1 m c r h).trans (W1_keep m c r h1)
theorem W6_launch (h1 : r ∉ hostOps0_W := by decide) (h : later r := by decide) : W6 m c (Proc.devRef .tc r) = m ((c : Thread nD τ).loc r) :=
  (W6_of_W1 m c r h).trans (W1_keep m c r h1)

end Cert.Kernel.HandValue

end
-- ==== Proof.K_Frame.lean ====
import proofs.«405115_j6640019439791_2_alg».proof.Proof.K_Chain

set_option maxRecDepth 16384

noncomputable section

namespace Cert.Kernel.Hand

open Idealize.ShloMosaic Idealize.ShloMosaic.TcCoe Idealize.SL.Sem
open Cert.Kernel Cert.Kernel.Gen Cert.Kernel.HandValue

variable {F : FTy → Type} [FloatOps F] (m : (ℓ : Loc nD τ sig) → Buf (Elt F) ℓ)

theorem mem_uc (b : Ref sig .tc) (h : ¬ (Proc.devRef .tc b : DevRef τ sig).isScoped := by decide) : Proc.devRef .tc b ∈ Pipeline.ucRefs τ sig :=
  Finset.mem_filter.mpr ⟨StableHlo.devRef_mem_tcRefs b, h⟩

/-- A buffer that nothing writes is read back at the end as launched. -/
theorem kept {μ : (ℓ : Loc nD τ sig) → Buf (Elt F) ℓ} {c : Dev nD} (h : ∀ b ∈ Pipeline.ucRefs τ sig, μ ((c : Thread nD τ).1, b) = W6 m c b)
    (r : Ref sig .tc) (hs : ¬ (Proc.devRef .tc r : DevRef τ sig).isScoped := by decide) (h1 : r ∉ hostOps0_W := by decide)
    (hl : later r := by decide) : μ ((c.tc : Thread nD τ).loc r) = m ((c.tc : Thread nD τ).loc r) :=
  (h _ (mem_uc r hs)).trans (W6_launch m c r h1 hl)

theorem run_result (ρ : Dev nD → PrngReg) :
    θ_run defs (onTc (τ := τ) (main (F := F))) ⟨m, fun _ => 0, ρ⟩ (fun r => ∀ c : Dev nD,
      r.2.mem ((c.tc : Thread nD τ).loc main_v109) = W6 m c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v109), kept m (h c) main_arg0, kept m (h c) main_arg1, kept m (h c) main_arg2, kept m (h c) main_arg3, kept m (h c) main_arg4, kept m (h c) main_arg5, kept m (h c) main_arg6, kept m (h c) main_arg7, kept m (h c) main_arg8, kept m (h c) main_arg9, kept m (h c) main_arg10, kept m (h c) main_arg11, kept m (h c) main_arg12, kept m (h c) main_arg13, kept m (h c) main_arg14⟩)
    (run_all m ρ)

end Cert.Kernel.Hand

end
-- ==== Proof.KI_R0.lean ====
import proofs.«405115_j6640019439791_2_alg».proof.Proof.Gen.KernelIdeal.Launch
import proofs.«405115_j6640019439791_2_alg».proof.Proof.Gen.KernelIdeal.Skeleton
import proofs.«405115_j6640019439791_2_alg».proof.Proof.Gen.KernelIdeal.Points
import proofs.«405115_j6640019439791_2_alg».proof.Proof.LibOwns
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_10 (x0 x1 : Vec F S5000x64 .f32) (x2 : Vec F S64x64 .f32) (x3 x4 x5 x6 x7 : Vec F S1x64 .f32) (x8 : Vec F S64x64 .f32) (x9 : Vec F S1x64 .f32) : Vec F S5000x64 .f32 := k0_pay1 (k0_pay3 x0 x1 x2 x3 x7 x4 x6 x5) (k0_pay4 x8) x9

def out0_11 (x0 x1 : Vec F S5000x64 .f32) (x2 : Vec F S64x64 .f32) (x3 x4 x5 x6 x7 : Vec F S1x64 .f32) (x8 : Vec F S64x64 .f32) (x9 : Vec F S1x64 .f32) : Vec F S5000x64 .bf16 := k0_pay2 (k0_pay3 x0 x1 x2 x3 x7 x4 x6 x5) (k0_pay4 x8) x9

theorem out0_10_eq (x0 x1 : Vec F S5000x64 .f32) (x2 : Vec F S64x64 .f32) (x3 x4 x5 x6 x7 : Vec F S1x64 .f32) (x8 : Vec F S64x64 .f32) (x9 : Vec F S1x64 .f32) : out0_10 x0 x1 x2 x3 x4 x5 x6 x7 x8 x9 = k0_pay1 (k0_pay3 x0 x1 x2 x3 x7 x4 x6 x5) (k0_pay4 x8) x9 := rfl

theorem out0_11_eq (x0 x1 : Vec F S5000x64 .f32) (x2 : Vec F S64x64 .f32) (x3 x4 x5 x6 x7 : Vec F S1x64 .f32) (x8 : Vec F S64x64 .f32) (x9 : Vec F S1x64 .f32) : out0_11 x0 x1 x2 x3 x4 x5 x6 x7 x8 x9 = k0_pay2 (k0_pay3 x0 x1 x2 x3 x7 x4 x6 x5) (k0_pay4 x8) x9 := rfl

set_option maxHeartbeats 1000000 in
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x64 .bf16) (harg12 : arg12.IsWhole)
    (x0 x1 : Vec F S5000x64 .f32) (x2 : Vec F S64x64 .f32) (x3 x4 x5 x6 x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 x0 x1 x2 x3 x4 x5 x6 x7 x8 x9) ∗ owns (c : Thread nD τ) arg12 fullShare (out0_11 x0 x1 x2 x3 x4 x5 x6 x7 x8 x9)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12) K := by
  simp only [cc0__mlp_kernel_eq_skeleton]; unfold cc0__mlp_kernel_skel
  simp only [owns_isWhole harg1, owns_isWhole harg2, owns_isWhole harg3, owns_isWhole harg4, owns_isWhole harg5, owns_isWhole harg6, owns_isWhole harg7, owns_isWhole harg8, owns_isWhole harg9, owns_isWhole harg10]
  unfold owns
  iintro ⟨H0, H1, H2, H3, H4, H5, H6, H7, H8, H9, ⟨%d10, %f10, -, H10⟩, ⟨%d11, %f11, -, H11⟩, Hk⟩
  sl_exec
  sl_step
  iapply Hk
  iframe H0 H1 H2 H3 H4 H5 H6 H7 H8 H9
  isplitl [H10]
  · iexists _; isplitr
    swap; · iexact H10
    ipureintro
    sl_unfold_run_names
    rw [View.read_writes_eq_canon _ _ _ (cover_whole zeros2 _ _ _), View.canon_unit_zero zeros2]
    simp only [View.readAt_eq_ld, Memref.IsWhole.read_unread, View.ld_unit_zero (S := S5000x64) zeros2, View.ld_unit_zero (S := S64x64) zeros2, View.ld_unit_zero (S := S1x64) zeros2]
    rfl
  iexists _; isplitr
  swap; · iexact H11
  ipureintro
  sl_unfold_run_names
  rw [View.read_writes_eq_canon _ _ _ (cover_whole zeros2 _ _ _), View.canon_unit_zero zeros2]
  simp only [View.readAt_eq_ld, Memref.IsWhole.read_unread, View.ld_unit_zero (S := S5000x64) zeros2, View.ld_unit_zero (S := S64x64) zeros2, View.ld_unit_zero (S := S1x64) zeros2]
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d
theorem before0_7 (c : Dev nD) (t : Fin cfg0.N) (d) : (dat0 V c).before 7 t d = iblk0 V c 7 t :=
  (dat0 V c).before_in_eq_fetched 7 rfl (fun _ => rfl) (fun _ _ _ => rfl) (fun _ => rfl) t d
theorem before0_8 (c : Dev nD) (t : Fin cfg0.N) (d) : (dat0 V c).before 8 t d = iblk0 V c 8 t :=
  (dat0 V c).before_in_eq_fetched 8 rfl (fun _ => rfl) (fun _ _ _ => rfl) (fun _ => rfl) t d
theorem before0_9 (c : Dev nD) (t : Fin cfg0.N) (d) : (dat0 V c).before 9 t d = iblk0 V c 9 t :=
  (dat0 V c).before_in_eq_fetched 9 rfl (fun _ => rfl) (fun _ _ _ => rfl) (fun _ => rfl) t d

set_option maxHeartbeats 1000000 in
theorem body_obligation0 (c : Dev nD) : BodyObligation (dat0 (F := F) V c) (defs₀ (F := F)) Variants.none () Set.univ := fun t => by
  rw [bigSep_W0, bigSep_W0]
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro H
  isplitl [HΦ]; · iexact HΦ
  isplitl [Ho]; · iexact Ho
  iexact H

end Cert.KernelIdeal.Hand
-- ==== Proof.KI_R1.lean ====
import proofs.«405115_j6640019439791_2_alg».proof.Proof.Gen.KernelIdeal.Launch
import proofs.«405115_j6640019439791_2_alg».proof.Proof.Gen.KernelIdeal.Skeleton
import proofs.«405115_j6640019439791_2_alg».proof.Proof.Gen.KernelIdeal.Points
import proofs.«405115_j6640019439791_2_alg».proof.Proof.LibOwns
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_10 (x0 x1 : Vec F S5000x64 .f32) (x2 : Vec F S64x64 .f32) (x3 x4 x5 x6 x7 : Vec F S1x64 .f32) (x8 : Vec F S64x64 .f32) (x9 : Vec F S1x64 .f32) : Vec F S5000x64 .f32 := k1_pay1 (k1_pay3 x0 x1 x2 x3 x7 x4 x6 x5) (k1_pay4 x8) x9

def out1_11 (x0 x1 : Vec F S5000x64 .f32) (x2 : Vec F S64x64 .f32) (x3 x4 x5 x6 x7 : Vec F S1x64 .f32) (x8 : Vec F S64x64 .f32) (x9 : Vec F S1x64 .f32) : Vec F S5000x64 .bf16 := k1_pay2 (k1_pay3 x0 x1 x2 x3 x7 x4 x6 x5) (k1_pay4 x8) x9

theorem out1_10_eq (x0 x1 : Vec F S5000x64 .f32) (x2 : Vec F S64x64 .f32) (x3 x4 x5 x6 x7 : Vec F S1x64 .f32) (x8 : Vec F S64x64 .f32) (x9 : Vec F S1x64 .f32) : out1_10 x0 x1 x2 x3 x4 x5 x6 x7 x8 x9 = k1_pay1 (k1_pay3 x0 x1 x2 x3 x7 x4 x6 x5) (k1_pay4 x8) x9 := rfl

theorem out1_11_eq (x0 x1 : Vec F S5000x64 .f32) (x2 : Vec F S64x64 .f32) (x3 x4 x5 x6 x7 : Vec F S1x64 .f32) (x8 : Vec F S64x64 .f32) (x9 : Vec F S1x64 .f32) : out1_11 x0 x1 x2 x3 x4 x5 x6 x7 x8 x9 = k1_pay2 (k1_pay3 x0 x1 x2 x3 x7 x4 x6 x5) (k1_pay4 x8) x9 := rfl

set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x64 .bf16) (harg12 : arg12.IsWhole)
    (x0 x1 : Vec F S5000x64 .f32) (x2 : Vec F S64x64 .f32) (x3 x4 x5 x6 x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3 x4 x5 x6 x7 x8 x9) ∗ owns (c : Thread nD τ) arg12 fullShare (out1_11 x0 x1 x2 x3 x4 x5 x6 x7 x8 x9)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10 arg11 harg11 arg12 harg12) K := by
  simp only [cc1__mlp_kernel_eq_skeleton]; unfold cc1__mlp_kernel_skel
  simp only [owns_isWhole harg1, owns_isWhole harg2, owns_isWhole harg3, owns_isWhole harg4, owns_isWhole harg5, owns_isWhole harg6, owns_isWhole harg7, owns_isWhole harg8, owns_isWhole harg9, owns_isWhole harg10]
  unfold owns
  iintro ⟨H0, H1, H2, H3, H4, H5, H6, H7, H8, H9, ⟨%d10, %f10, -, H10⟩, ⟨%d11, %f11, -, H11⟩, Hk⟩
  sl_exec
  sl_step
  iapply Hk
  iframe H0 H1 H2 H3 H4 H5 H6 H7 H8 H9
  isplitl [H10]
  · iexists _; isplitr
    swap; · iexact H10
    ipureintro
    sl_unfold_run_names
    rw [View.read_writes_eq_canon _ _ _ (cover_whole zeros2 _ _ _), View.canon_unit_zero zeros2]
    simp only [View.readAt_eq_ld, Memref.IsWhole.read_unread, View.ld_unit_zero (S := S5000x64) zeros2, View.ld_unit_zero (S := S64x64) zeros2, View.ld_unit_zero (S := S1x64) zeros2]
    rfl
  iexists _; isplitr
  swap; · iexact H11
  ipureintro
  sl_unfold_run_names
  rw [View.read_writes_eq_canon _ _ _ (cover_whole zeros2 _ _ _), View.canon_unit_zero zeros2]
  simp only [View.readAt_eq_ld, Memref.IsWhole.read_unread, View.ld_unit_zero (S := S5000x64) zeros2, View.ld_unit_zero (S := S64x64) zeros2, View.ld_unit_zero (S := S1x64) zeros2]
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d
theorem before1_9 (c : Dev nD) (t : Fin cfg1.N) (d) : (dat1 V c).before 9 t d = iblk1 V c 9 t :=
  (dat1 V c).before_in_eq_fetched 9 rfl (fun _ => rfl) (fun _ _ _ => rfl) (fun _ => rfl) t d

set_option maxHeartbeats 1000000 in
theorem body_obligation1 (c : Dev nD) : BodyObligation (dat1 (F := F) V c) (defs₀ (F := F)) Variants.none () Set.univ := fun t => by
  rw [bigSep_W1, bigSep_W1]
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro H
  isplitl [HΦ]; · iexact HΦ
  isplitl [Ho]; · iexact Ho
  iexact H

end Cert.KernelIdeal.Hand
-- ==== Proof.KI_R2.lean ====
import proofs.«405115_j6640019439791_2_alg».proof.Proof.Gen.KernelIdeal.Launch
import proofs.«405115_j6640019439791_2_alg».proof.Proof.Gen.KernelIdeal.Skeleton
import proofs.«405115_j6640019439791_2_alg».proof.Proof.Gen.KernelIdeal.Points
import proofs.«405115_j6640019439791_2_alg».proof.Proof.LibOwns
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev isFirst (i : grid2.Coords) : Prop := (Scalar.cmpi .ne (Scalar.extui (Scalar.cmpi .eq (BitVec.ofNat 32 (i 0).val) 0#32)) 0#32) = 1#1

abbrev isLast (i : grid2.Coords) : Prop := k2_cond2 i = 1#1

theorem isFirst_iff : ∀ t : Fin cfg2.N, isFirst (grid2.coords t) ↔ t.val % 20 = 0 :=
  (by decide +kernel : ∀ t : Fin grid2.N, isFirst (grid2.coords t) ↔ t.val % 20 = 0)
theorem isLast_iff : ∀ t : Fin cfg2.N, isLast (grid2.coords t) ↔ t.val % 20 = 19 :=
  (by decide +kernel : ∀ t : Fin grid2.N, isLast (grid2.coords t) ↔ t.val % 20 = 19)

def poolStep (x0 x1 : Vec F S5000x64 .f32) (x2 : Vec F S5000x1 .i32) (x3 : Vec F S64x64 .f32)
    (x4 x5 x6 x7 x8 : Vec F S1x64 .f32) (x9 : Vec F S64x64 .f32) (x10 : Vec F S1x64 .f32)
    (a : Vec F S128x64 .f32) : Vec F S128x64 .f32 :=
  k2_pay1 (k2_pay4 x0 x1 x3 x4 x8 x5 x7) (k2_pay5 x6) x9 x10 x2 a

set_option maxHeartbeats 4000000 in
/-- One point of the third region, whichever of the first, a middle or the last point it is: the accumulator restarts from zero at the first point and the result array is written at the last. -/
theorem kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x1 .i32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S64x10 .f32) (harg14 : arg14.IsWhole) (arg15 : Memref sig .tc .vmem S1x10 .f32) (harg15 : arg15.IsWhole) (arg16 : Memref sig .tc .vmem S128x10 .f32) (harg16 : arg16.IsWhole) (arg17 : Memref sig .tc .vmem S128x64 .f32) (harg17 : arg17.IsWhole)
    (h01 : ¬(isFirst i ∧ isLast i)) (x0 x1 : Vec F S5000x64 .f32) (x2 : Vec F S5000x1 .i32) (x3 : Vec F S64x64 .f32) (x4 x5 x6 x7 x8 : Vec F S1x64 .f32) (x9 : Vec F S64x64 .f32) (x10 : Vec F S1x64 .f32) (x11 : Vec F S64x64 .f32) (x12 : Vec F S1x64 .f32) (x13 : Vec F S64x10 .f32) (x14 : Vec F S1x10 .f32) (y : Vec F S128x10 .f32) (a : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare y ∗ owns (c : Thread nD τ) arg17 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ owns (c : Thread nD τ) arg16 fullShare (if isLast i then k2_pay2 (poolStep x0 x1 x2 x3 x4 x5 x6 x7 x8 x9 x10 (if isFirst i then k2_pay3 (F := F) else a)) x11 x12 x13 x14 else y)
            ∗ owns (c : Thread nD τ) arg17 fullShare (poolStep x0 x1 x2 x3 x4 x5 x6 x7 x8 x9 x10 (if isFirst i then k2_pay3 (F := F) else a))) -∗ K ⟨⟩))
      ⊢ wp frame (wpE (defs₀ (F := F)) Variants.none c none) E (cc2__last_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2__last_kernel_eq_skeleton]; unfold cc2__last_kernel_skel
  simp only [owns_isWhole harg1, owns_isWhole harg2, owns_isWhole harg3, owns_isWhole harg4, owns_isWhole harg5, owns_isWhole harg6, owns_isWhole harg7, owns_isWhole harg8, owns_isWhole harg9, owns_isWhole harg10, owns_isWhole harg11, owns_isWhole harg12, owns_isWhole harg13, owns_isWhole harg14, owns_isWhole harg15]
  unfold owns
  iintro ⟨H0, H1, H2, H3, H4, H5, H6, H7, H8, H9, H10, H11, H12, H13, H14, ⟨%f15, %hf15, H15⟩, ⟨%f16, %hf16, H16⟩, Hk⟩
  obtain rfl := harg16.eq_unread hf15; obtain rfl := harg17.eq_unread hf16
  by_cases hc0 : isFirst i <;> by_cases hc1 : isLast i
  · exact absurd ⟨hc0, hc1⟩ h01
  all_goals
    sl_exec (disch := first | exact hc0 | exact hc1)
    sl_step
    iapply Hk
    iframe H0 H1 H2 H3 H4 H5 H6 H7 H8 H9 H10 H11 H12 H13 H14
    isplitl [H15]
    · iexists _; isplitr
      swap; · iexact H15
      ipureintro
      first | rw [if_pos hc1] | rw [if_neg hc1]
      try first | rw [if_pos hc0] | rw [if_neg hc0]
      first
        | exact harg16.read_unread _
        | (
          sl_unfold_run_names
          rw [View.read_writes_eq_canon _ _ _ (cover_whole zeros2 _ _ _), View.canon_cons_unit_zero zeros2]
          simp only [View.readAt_eq_ld, Memref.IsWhole.read_unread, View.ld_unit_zero (S := S5000x64) zeros2, View.ld_unit_zero (S := S5000x1) zeros2, View.ld_unit_zero (S := S64x64) zeros2, View.ld_unit_zero (S := S1x64) zeros2, View.ld_unit_zero (S := S64x10) zeros2, View.ld_unit_zero (S := S1x10) zeros2, View.ld_unit_zero (S := S128x64) zeros2, View.ld_unit_zero (S := S128x10) zeros2, View.readCov_unit_zero (S := S128x64) _ zeros2]
          rfl)
    iexists _; isplitr
    swap; · iexact H16
    ipureintro
    first | rw [if_pos hc0] | rw [if_neg hc0]
    sl_unfold_run_names
    rw [View.read_writes_eq_canon _ _ _ (cover_whole zeros2 _ _ _), View.canon_cons_unit_zero zeros2]
    simp only [View.readAt_eq_ld, Memref.IsWhole.read_unread, View.ld_unit_zero (S := S5000x64) zeros2, View.ld_unit_zero (S := S5000x1) zeros2, View.ld_unit_zero (S := S64x64) zeros2, View.ld_unit_zero (S := S1x64) zeros2, View.ld_unit_zero (S := S64x10) zeros2, View.ld_unit_zero (S := S1x10) zeros2, View.ld_unit_zero (S := S128x64) zeros2, View.ld_unit_zero (S := S128x10) zeros2, View.readCov_unit_zero (S := S128x64) _ zeros2]
    rfl

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev blk2_0 (c : Dev nD) (t : Fin cfg2.N) : Vec F S5000x64 .f32 := iblk2 V c 0 t
abbrev blk2_1 (c : Dev nD) (t : Fin cfg2.N) : Vec F S5000x64 .f32 := iblk2 V c 1 t
abbrev blk2_2 (c : Dev nD) (t : Fin cfg2.N) : Vec F S5000x1 .i32 := iblk2 V c 2 t
abbrev blk2_3 (c : Dev nD) (t : Fin cfg2.N) : Vec F S64x64 .f32 := iblk2 V c 3 t
abbrev blk2_4 (c : Dev nD) (t : Fin cfg2.N) : Vec F S1x64 .f32 := iblk2 V c 4 t
abbrev blk2_5 (c : Dev nD) (t : Fin cfg2.N) : Vec F S1x64 .f32 := iblk2 V c 5 t
abbrev blk2_6 (c : Dev nD) (t : Fin cfg2.N) : Vec F S1x64 .f32 := iblk2 V c 6 t
abbrev blk2_7 (c : Dev nD) (t : Fin cfg2.N) : Vec F S1x64 .f32 := iblk2 V c 7 t
abbrev blk2_8 (c : Dev nD) (t : Fin cfg2.N) : Vec F S1x64 .f32 := iblk2 V c 8 t
abbrev blk2_9 (c : Dev nD) (t : Fin cfg2.N) : Vec F S64x64 .f32 := iblk2 V c 9 t
abbrev blk2_10 (c : Dev nD) (t : Fin cfg2.N) : Vec F S1x64 .f32 := iblk2 V c 10 t
abbrev blk2_11 (c : Dev nD) (t : Fin cfg2.N) : Vec F S64x64 .f32 := iblk2 V c 11 t
abbrev blk2_12 (c : Dev nD) (t : Fin cfg2.N) : Vec F S1x64 .f32 := iblk2 V c 12 t
abbrev blk2_13 (c : Dev nD) (t : Fin cfg2.N) : Vec F S64x10 .f32 := iblk2 V c 13 t
abbrev blk2_14 (c : Dev nD) (t : Fin cfg2.N) : Vec F S1x10 .f32 := iblk2 V c 14 t

def stepAt (c : Dev nD) (t : Fin cfg2.N) (a : Vec F S128x64 .f32) : Vec F S128x64 .f32 :=
  poolStep (blk2_0 V c t) (blk2_1 V c t) (blk2_2 V c t) (blk2_3 V c t) (blk2_4 V c t) (blk2_5 V c t) (blk2_6 V c t) (blk2_7 V c t) (blk2_8 V c t) (blk2_9 V c t) (blk2_10 V c t) a

def acc2 (c : Dev nD) : ℕ → Vec F S128x64 .f32
  | 0 => k2_pay3 (F := F)
  | n + 1 => if h : n < cfg2.N then stepAt V c ⟨n, h⟩ (acc2 c n) else acc2 c n

theorem acc2_zero (c : Dev nD) : acc2 V c 0 = k2_pay3 (F := F) := rfl

theorem acc2_succ (c : Dev nD) (t : Fin cfg2.N) : acc2 V c (t.val + 1) = stepAt V c t (acc2 V c t.val) := by
  obtain ⟨n, hn⟩ := t
  show acc2 V c (n + 1) = _
  rw [acc2, dif_pos hn]

/-- What a point finds in the accumulator, once the first point's restart is taken into account, is the fold so far. -/
theorem acc_in (c : Dev nD) (t : Fin cfg2.N) (a : Vec F S128x64 .f32) (ha : t.val ≠ 0 → a = acc2 V c t.val) :
    (if isFirst (grid2.coords t) then k2_pay3 (F := F) else a) = acc2 V c t.val := by
  have hN : t.val < 20 := lt_of_lt_of_eq t.isLt (show cfg2.N = 20 from N_2)
  by_cases h : isFirst (grid2.coords t)
  · rw [if_pos h, show t.val = 0 from by have := (isFirst_iff t).mp h; omega]; rfl
  · rw [if_neg h]; exact ha fun h0 => h ((isFirst_iff t).mpr (by omega))

abbrev pt19 : Fin cfg2.N := ⟨19, by decide⟩

def out2_15 (c : Dev nD) : Vec F S128x10 .f32 :=
  k2_pay2 (acc2 V c 20) (blk2_11 V c pt19) (blk2_12 V c pt19) (blk2_13 V c pt19) (blk2_14 V c pt19)

abbrev scM2 : Memref sig .tc .vmem S128x64 .f32 := Memref.whole cc2_scratch0

/-- Between points the scratch buffer holds the fold so far (anything before the first point). -/
def Phi2 (c : Dev nD) (n : ℕ) : sProp 𝕄 :=
  iprop(iprop((∃ d, ⌜n ≠ 0 → d = acc2 V c n⌝ ∗ owns (c : Thread nD τ) scM2 fullShare d)
      ∗ Pipeline.scopedRestBut (Ix := Unit) (Name := ℕ) (U := UR sig nD τ) (Lvl := ℕ) (Val := Elt F) spec2 c [cc2_scratch0])
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => out2_15 V c
    | ⟨_ + 16, h⟩ => absurd h (Nat.not_lt.2 (Nat.le_add_left _ _))
  Φ t := Phi2 V c t.val
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = out2_15 V c := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d
theorem before2_7 (c : Dev nD) (t : Fin cfg2.N) (d) : (dat2 V c).before 7 t d = iblk2 V c 7 t :=
  (dat2 V c).before_in_eq_fetched 7 rfl (fun _ => rfl) (fun _ _ _ => rfl) (fun _ => rfl) t d
theorem before2_8 (c : Dev nD) (t : Fin cfg2.N) (d) : (dat2 V c).before 8 t d = iblk2 V c 8 t :=
  (dat2 V c).before_in_eq_fetched 8 rfl (fun _ => rfl) (fun _ _ _ => rfl) (fun _ => rfl) t d
theorem before2_9 (c : Dev nD) (t : Fin cfg2.N) (d) : (dat2 V c).before 9 t d = iblk2 V c 9 t :=
  (dat2 V c).before_in_eq_fetched 9 rfl (fun _ => rfl) (fun _ _ _ => rfl) (fun _ => rfl) t d
theorem before2_10 (c : Dev nD) (t : Fin cfg2.N) (d) : (dat2 V c).before 10 t d = iblk2 V c 10 t :=
  (dat2 V c).before_in_eq_fetched 10 rfl (fun _ => rfl) (fun _ _ _ => rfl) (fun _ => rfl) t d
theorem before2_11 (c : Dev nD) (t : Fin cfg2.N) (d) : (dat2 V c).before 11 t d = iblk2 V c 11 t :=
  (dat2 V c).before_in_eq_fetched 11 rfl (fun _ => rfl) (fun _ _ _ => rfl) (fun _ => rfl) t d
theorem before2_12 (c : Dev nD) (t : Fin cfg2.N) (d) : (dat2 V c).before 12 t d = iblk2 V c 12 t :=
  (dat2 V c).before_in_eq_fetched 12 rfl (fun _ => rfl) (fun _ _ _ => rfl) (fun _ => rfl) t d
theorem before2_13 (c : Dev nD) (t : Fin cfg2.N) (d) : (dat2 V c).before 13 t d = iblk2 V c 13 t :=
  (dat2 V c).before_in_eq_fetched 13 rfl (fun _ => rfl) (fun _ _ _ => rfl) (fun _ => rfl) t d
theorem before2_14 (c : Dev nD) (t : Fin cfg2.N) (d) : (dat2 V c).before 14 t d = iblk2 V c 14 t :=
  (dat2 V c).before_in_eq_fetched 14 rfl (fun _ => rfl) (fun _ _ _ => rfl) (fun _ => rfl) t d

theorem idle2_15 : ∀ t : Fin cfg2.N, ¬isLast (grid2.coords t) → idle2 15 (grid2.coords t) = true := by decide +kernel
theorem noFlush2_15 : ∀ t : Fin cfg2.N, ¬isLast (grid2.coords t) → (win2 15).flush t = false := by decide +kernel
theorem live2_15 : ∀ t : Fin cfg2.N, isLast (grid2.coords t) → idle2 15 (grid2.coords t) = false := by decide +kernel

set_option maxHeartbeats 4000000 in
theorem body_obligation2 (c : Dev nD) : BodyObligation (dat2 (F := F) V c) (defs₀ (F := F)) Variants.none () Set.univ := fun t => by
  rw [bigSep_W2, bigSep_W2]
  simp only [before2_0, before2_1, before2_2, before2_3, before2_4, before2_5, before2_6, before2_7, before2_8, before2_9, before2_10, before2_11, before2_12, before2_13, before2_14]
  rw [show (dat2 V c).owesAt () t.succ = (dat2 V c).owesAt () t.castSucc from rfl,
    show (dat2 V c).Φ t.castSucc = Phi2 V c t.val from rfl, show (dat2 V c).Φ t.succ = Phi2 V c (t.val + 1) from rfl,
    after2_0, after2_1, after2_2, after2_3, after2_4, after2_5, after2_6, after2_7, after2_8, after2_9, after2_10, after2_11, after2_12, after2_13, after2_14]
  unfold Phi2
  iintro ⟨⟨⟨⟨%a, %ha, HS⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (kernel2 c Set.univ (grid2.coords t) _ _ _ _ _ _ _ _ _ _ _ _ _ _ _ _ _ _ _ _ _ _ _ _ _ _ _ _ _ _ _ _ _ _
    (fun h => by have := (isFirst_iff t).mp h.1; have := (isLast_iff t).mp h.2; omega) (blk2_0 V c t) (blk2_1 V c t) (blk2_2 V c t) (blk2_3 V c t) (blk2_4 V c t) (blk2_5 V c t) (blk2_6 V c t) (blk2_7 V c t) (blk2_8 V c t) (blk2_9 V c t) (blk2_10 V c t) (blk2_11 V c t) (blk2_12 V c t) (blk2_13 V c t) (blk2_14 V c t) _ a _)
  simp only [acc_in V c t a ha]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  iintro ⟨H0, H1, H2, H3, H4, H5, H6, H7, H8, H9, H10, H11, H12, H13, H14, H15, HS⟩
  isplitl [HS Hrest Hg]
  · isplitl [HS Hrest]
    · isplitl [HS]
      · iexists _; isplitr
        · ipureintro; exact fun _ => (acc2_succ V c t).symm
        iexact HS
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  by_cases h1 : isLast (grid2.coords t)
  · simp only [if_pos h1, live2_15 t h1, after2_15]
    obtain rfl : t = pt19 := Fin.ext (by have := (isLast_iff t).mp h1; have := lt_of_lt_of_eq t.isLt N_2; show t.val = 19; omega)
    iexact H15
  · simp only [if_neg h1, idle2_15 t h1, noFlush2_15 t h1]
    iexists _; iexact H15

theorem hin2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = Phi2 V c 0 from rfl, scopedRest2_split]; unfold Phi2; simp only [scM2, owns_whole]
  iintro ⟨Hp, ⟨%d, HS⟩, Hr⟩
  isplitr [Hp]
  · isplitl [HS]
    · iexists d; isplitr; · ipureintro; exact fun h => absurd rfl h
      iexact HS
    iexact Hr
  iexact Hp

theorem hout2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c (Fin.last cfg2.N).val from rfl, scopedRest2_split]; unfold Phi2; simp only [scM2, owns_whole]
  iintro ⟨⟨⟨%d, -, HS⟩, Hr⟩, Hp⟩
  isplitl [Hp]; · iexact Hp
  isplitl [HS]; · iexists d; iexact HS
  iexact Hr

end Region2

end Cert.KernelIdeal.Hand

end
-- ==== Proof.KI_Run.lean ====
import proofs.«405115_j6640019439791_2_alg».proof.Proof.Gen.KernelIdeal.Launch
import proofs.«405115_j6640019439791_2_alg».proof.Proof.Gen.KernelIdeal.Skeleton
import proofs.«405115_j6640019439791_2_alg».proof.Proof.Gen.KernelIdeal.Points
import proofs.«405115_j6640019439791_2_alg».proof.Proof.Gen.KernelIdeal.Regions
import proofs.«405115_j6640019439791_2_alg».proof.Proof.KI_R0
import proofs.«405115_j6640019439791_2_alg».proof.Proof.KI_R1
import proofs.«405115_j6640019439791_2_alg».proof.Proof.KI_R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m) c)
    iintro ⟨Hp, -, Hr⟩
    isplitl [Hp]; · iexact Hp
    iexact Hr
  hout c := by
    rw [Pipeline.ownSems0_none]
    refine (hout2 (V5 m) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ (∃ r, prngReg c r) ∗ ∃ W, owes (c : Thread nD τ) (0 : CellTallies nD τ sig Unit) W) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.KI_Chain.lean ====
import proofs.«405115_j6640019439791_2_alg».proof.Proof.KI_Run

set_option maxRecDepth 16384

noncomputable section

namespace Cert.KernelIdeal.HandValue

open Idealize.ShloMosaic Idealize.ShloMosaic.TcCoe
open Idealize.SL Idealize.SL.Sem
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ) (c : Dev nD) (r : Ref sig .tc)

abbrev outs0 : List (Ref sig .tc) := [main_v39_0, main_v39_1]
abbrev outs1 : List (Ref sig .tc) := [main_v73_0, main_v73_1]
abbrev outs2 : List (Ref sig .tc) := [main_v109]

/-- A host stretch changes only the buffers its operations write; a region changes only its result arrays. -/
theorem W1_keep (h : r ∉ hostOps0_W := by decide) : W1 m c (Proc.devRef .tc r) = W0 m c (Proc.devRef .tc r) :=
  StableHlo.after_of_writes_sub hostOps0 _ hostOps0_writes h

theorem inputs0 : ∀ w : Fin cfg0.W, Pipeline.arrRef spec0 w ∉ outs0 → (cfg0.win w).isOut = false := by decide

theorem W2_keep (h : r ∉ outs0 := by decide) : W2 m c (Proc.devRef .tc r) = W1 m c (Proc.devRef .tc r) := by
  by_cases hw : ∃ w, Pipeline.arrRef spec0 w = r
  · obtain ⟨w, rfl⟩ := hw
    exact (W2_arr m c w).trans (((dat0 (Hand.V1 m) c).arrAt_in w (inputs0 w h) _).trans (A_eq0 (Hand.V1 m) c w))
  · exact W2_of_ne m c r fun w e => hw ⟨w, e⟩

theorem W3_keep (h : r ∉ hostOps1_W := by decide) : W3 m c (Proc.devRef .tc r) = W2 m c (Proc.devRef .tc r) :=
  StableHlo.after_of_writes_sub hostOps1 _ hostOps1_writes h

theorem inputs1 : ∀ w : Fin cfg1.W, Pipeline.arrRef spec1 w ∉ outs1 → (cfg1.win w).isOut = false := by decide

theorem W4_keep (h : r ∉ outs1 := by decide) : W4 m c (Proc.devRef .tc r) = W3 m c (Proc.devRef .tc r) := by
  by_cases hw : ∃ w, Pipeline.arrRef spec1 w = r
  · obtain ⟨w, rfl⟩ := hw
    exact (W4_arr m c w).trans (((dat1 (Hand.V3 m) c).arrAt_in w (inputs1 w h) _).trans (A_eq1 (Hand.V3 m) c w))
  · exact W4_of_ne m c r fun w e => hw ⟨w, e⟩

theorem W5_keep (h : r ∉ hostOps2_W := by decide) : W5 m c (Proc.devRef .tc r) = W4 m c (Proc.devRef .tc r) :=
  StableHlo.after_of_writes_sub hostOps2 _ hostOps2_writes h

theorem inputs2 : ∀ w : Fin cfg2.W, Pipeline.arrRef spec2 w ∉ outs2 → (cfg2.win w).isOut = false := by decide

theorem W6_keep (h : r ∉ outs2 := by decide) : W6 m c (Proc.devRef .tc r) = W5 m c (Proc.devRef .tc r) := by
  by_cases hw : ∃ w, Pipeline.arrRef spec2 w = r
  · obtain ⟨w, rfl⟩ := hw
    exact (W6_arr m c w).trans (((dat2 (Hand.V5 m) c).arrAt_in w (inputs2 w h) _).trans (A_eq2 (Hand.V5 m) c w))
  · exact W6_of_ne m c r fun w e => hw ⟨w, e⟩

/-- Nothing after the first host stretch writes `r`. -/
abbrev later : Prop := r ∉ outs0 ∧ r ∉ hostOps1_W ∧ r ∉ outs1 ∧ r ∉ hostOps2_W ∧ r ∉ outs2

theorem W2_of_W1 (h : later r := by decide) : W2 m c (Proc.devRef .tc r) = W1 m c (Proc.devRef .tc r) := W2_keep m c r h.1
theorem W3_of_W1 (h : later r := by decide) : W3 m c (Proc.devRef .tc r) = W1 m c (Proc.devRef .tc r) :=
  (W3_keep m c r h.2.1).trans (W2_of_W1 m c r h)
theorem W4_of_W1 (h : later r := by decide) : W4 m c (Proc.devRef .tc r) = W1 m c (Proc.devRef .tc r) :=
  (W4_keep m c r h.2.2.1).trans (W3_of_W1 m c r h)
theorem W5_of_W1 (h : later r := by decide) : W5 m c (Proc.devRef .tc r) = W1 m c (Proc.devRef .tc r) :=
  (W5_keep m c r h.2.2.2.1).trans (W4_of_W1 m c r h)
theorem W6_of_W1 (h : later r := by decide) : W6 m c (Proc.devRef .tc r) = W1 m c (Proc.devRef .tc r) :=
  (W6_keep m c r h.2.2.2.2).trans (W5_of_W1 m c r h)

theorem W1_launch (h1 : r ∉ hostOps0_W := by decide) : W1 m c (Proc.devRef .tc r) = m ((c : Thread nD τ).loc r) :=
  W1_keep m c r h1
theorem W2_launch (h1 : r ∉ hostOps0_W := by decide) (h : later r := by decide) : W2 m c (Proc.devRef .tc r) = m ((c : Thread nD τ).loc r) :=
  (W2_of_W1 m c r h).trans (W1_keep m c r h1)
theorem W3_launch (h1 : r ∉ hostOps0_W := by decide) (h : later r := by decide) : W3 m c (Proc.devRef .tc r) = m ((c : Thread nD τ).loc r) :=
  (W3_of_W1 m c r h).trans (W1_keep m c r h1)
theorem W4_launch (h1 : r ∉ hostOps0_W := by decide) (h : later r := by decide) : W4 m c (Proc.devRef .tc r) = m ((c : Thread nD τ).loc r) :=
  (W4_of_W1 m c r h).trans (W1_keep m c r h1)
theorem W5_launch (h1 : r ∉ hostOps0_W := by decide) (h : later r := by decide) : W5 m c (Proc.devRef .tc r) = m ((c : Thread nD τ).loc r) :=
  (W5_of_W1 m c r h).trans (W1_keep m c r h1)
theorem W6_launch (h1 : r ∉ hostOps0_W := by decide) (h : later r := by decide) : W6 m c (Proc.devRef .tc r) = m ((c : Thread nD τ).loc r) :=
  (W6_of_W1 m c r h).trans (W1_keep m c r h1)

end Cert.KernelIdeal.HandValue

end
-- ==== Proof.KI_Frame.lean ====
import proofs.«405115_j6640019439791_2_alg».proof.Proof.KI_Chain

set_option maxRecDepth 16384

noncomputable section

namespace Cert.KernelIdeal.Hand

open Idealize.ShloMosaic Idealize.ShloMosaic.TcCoe Idealize.SL.Sem
open Cert.KernelIdeal Cert.KernelIdeal.Gen Cert.KernelIdeal.HandValue

variable {F : FTy → Type} [FloatOps F] (m : (ℓ : Loc nD τ sig) → Buf (Elt F) ℓ)

theorem mem_uc (b : Ref sig .tc) (h : ¬ (Proc.devRef .tc b : DevRef τ sig).isScoped := by decide) : Proc.devRef .tc b ∈ Pipeline.ucRefs τ sig :=
  Finset.mem_filter.mpr ⟨StableHlo.devRef_mem_tcRefs b, h⟩

/-- A buffer that nothing writes is read back at the end as launched. -/
theorem kept {μ : (ℓ : Loc nD τ sig) → Buf (Elt F) ℓ} {c : Dev nD} (h : ∀ b ∈ Pipeline.ucRefs τ sig, μ ((c : Thread nD τ).1, b) = W6 m c b)
    (r : Ref sig .tc) (hs : ¬ (Proc.devRef .tc r : DevRef τ sig).isScoped := by decide) (h1 : r ∉ hostOps0_W := by decide)
    (hl : later r := by decide) : μ ((c.tc : Thread nD τ).loc r) = m ((c.tc : Thread nD τ).loc r) :=
  (h _ (mem_uc r hs)).trans (W6_launch m c r h1 hl)

theorem run_result (ρ : Dev nD → PrngReg) :
    θ_run defs (onTc (τ := τ) (main (F := F))) ⟨m, fun _ => 0, ρ⟩ (fun r => ∀ c : Dev nD,
      r.2.mem ((c.tc : Thread nD τ).loc main_v109) = W6 m c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v109), kept m (h c) main_arg0, kept m (h c) main_arg1, kept m (h c) main_arg2, kept m (h c) main_arg3, kept m (h c) main_arg4, kept m (h c) main_arg5, kept m (h c) main_arg6, kept m (h c) main_arg7, kept m (h c) main_arg8, kept m (h c) main_arg9, kept m (h c) main_arg10, kept m (h c) main_arg11, kept m (h c) main_arg12, kept m (h c) main_arg13, kept m (h c) main_arg14⟩)
    (run_all m ρ)

end Cert.KernelIdeal.Hand

end
-- ==== Proof.Spec.lean ====
import Idealize.ShloMosaic.PureOps.Ideal

noncomputable section

namespace Cert.Spec

open Idealize.ShloMosaic

abbrev Arr (n d : Nat) := Fin n → Fin d → EReal

structure Layer where
  W1 : Fin 64 → Fin 64 → EReal
  b1 : Fin 64 → EReal
  gamma : Fin 64 → EReal
  beta : Fin 64 → EReal
  rm : Fin 64 → EReal
  rv : Fin 64 → EReal
  W2 : Fin 64 → Fin 64 → EReal
  b2 : Fin 64 → EReal

def hidden (L : Layer) (z : Fin 64 → EReal) (k : Fin 64) : EReal :=
  max ((∑ j : Fin 64, z j * L.W1 j k) + L.b1 k) 0

def normed (eps : EReal) (L : Layer) (z : Fin 64 → EReal) (k : Fin 64) : EReal :=
  L.gamma k * (hidden L z k - L.rm k) * Ideal.rsqrt (L.rv k + eps) + L.beta k

def mlp (eps : EReal) (L : Layer) (z : Fin 64 → EReal) (q : Fin 64) : EReal :=
  (∑ k : Fin 64, normed eps L z k * L.W2 k q) + L.b2 q

def agg {E N : Nat} (src : Fin E → Fin N) (hit : Fin E → Fin N → Prop) [∀ e n, Decidable (hit e n)]
    (h : Arr N 64) : Arr N 64 :=
  fun n q => ∑ e ∈ Finset.univ.filter (fun e => hit e n), h (src e) q

def layer {E N : Nat} (src : Fin E → Fin N) (hit : Fin E → Fin N → Prop) [∀ e n, Decidable (hit e n)]
    (eps : EReal) (L : Layer) (h : Arr N 64) : Arr N 64 :=
  fun n => mlp eps L (fun j => h n j + agg src hit h n j)

def pool {N G : Nat} (seg : Fin N → Fin G → Prop) [∀ n g, Decidable (seg n g)] (h : Arr N 64) : Arr G 64 :=
  fun g d => ∑ n ∈ Finset.univ.filter (fun n => seg n g), h n d

def logits (Wc1 : Fin 64 → Fin 64 → EReal) (bc1 : Fin 64 → EReal) (Wc2 : Fin 64 → Fin 10 → EReal) (bc2 : Fin 10 → EReal)
    (p : Fin 64 → EReal) (j : Fin 10) : EReal :=
  (∑ k : Fin 64, max ((∑ i : Fin 64, p i * Wc1 i k) + bc1 k) 0 * Wc2 k j) + bc2 j

def logSoftmax (l : Fin 10 → EReal) (j : Fin 10) : EReal :=
  (l j - Finset.univ.sup' Finset.univ_nonempty l) -
    Ideal.log (∑ i : Fin 10, Ideal.exp (l i - Finset.univ.sup' Finset.univ_nonempty l))

def net {E N G : Nat} (src : Fin E → Fin N) (hit : Fin E → Fin N → Prop) [∀ e n, Decidable (hit e n)]
    (seg : Fin N → Fin G → Prop) [∀ n g, Decidable (seg n g)] (eps : EReal) (L0 L1 L2 : Layer)
    (Wc1 : Fin 64 → Fin 64 → EReal) (bc1 : Fin 64 → EReal) (Wc2 : Fin 64 → Fin 10 → EReal) (bc2 : Fin 10 → EReal)
    (x : Arr N 64) : Fin G → Fin 10 → EReal :=
  fun g => logSoftmax (logits Wc1 bc1 Wc2 bc2
    (pool seg (layer src hit eps L2 (layer src hit eps L1 (layer src hit eps L0 x))) g))

end Cert.Spec

end
-- ==== Proof.EdgeMaps.lean ====
import Idealize.ShloMosaic.PureOps.Ideal

namespace Cert.EdgeMaps

open Idealize.ShloMosaic

def wrap (v : BitVec 32) : BitVec 32 := if v.slt 0#32 then v + 100000#32 else v

def clampRow (v : BitVec 32) : Fin 100000 := ⟨min v.toInt.toNat 99999, by omega⟩

def srcOf (ei : Fin 2 → Fin 1600000 → BitVec 32) (e : Fin 1600000) : Fin 100000 := clampRow (wrap (ei 0 e))

def hitOf (ei : Fin 2 → Fin 1600000 → BitVec 32) (e : Fin 1600000) (n : Fin 100000) : Prop :=
  (ei 1 e).toInt = (n.val : Int)

def segOf (bt : Fin 100000 → BitVec 32) (n : Fin 100000) (g : Fin 128) : Prop :=
  (bt n).toInt = (g.val : Int)

instance (ei : Fin 2 → Fin 1600000 → BitVec 32) (e : Fin 1600000) (n : Fin 100000) : Decidable (hitOf ei e n) :=
  inferInstanceAs (Decidable ((ei 1 e).toInt = (n.val : Int)))

instance (bt : Fin 100000 → BitVec 32) (n : Fin 100000) (g : Fin 128) : Decidable (segOf bt n g) :=
  inferInstanceAs (Decidable ((bt n).toInt = (g.val : Int)))

theorem select_eq_wrap (v : BitVec 32) :
    Scalar.select (IntOp.cmpi .slt v 0#32) (IntOp.addi v 100000#32) v = wrap v := by
  unfold Scalar.select IntOp.cmpi IntOp.addi wrap
  cases h : v.slt 0#32 <;> simp

end Cert.EdgeMaps
-- ==== Proof.Params.lean ====
import proofs.«405115_j6640019439791_2_alg».proof.Proof.Spec
import Idealize.ShloMosaic.Lib.ValueIdx

noncomputable section

namespace Cert.Params

open Idealize.ShloMosaic Idealize.ShloMosaic.ValueIdx

def bnEps : EReal := Ideal.ofBits .f32 0x3727C5AC#32

def layerAt (k : Fin 3)
    (W1 : (⟨3, ![3, 64, 64]⟩ : Shape).Idx → EReal) (b1 ga be rm rv : (⟨2, ![3, 64]⟩ : Shape).Idx → EReal)
    (W2 : (⟨3, ![3, 64, 64]⟩ : Shape).Idx → EReal) (b2 : (⟨2, ![3, 64]⟩ : Shape).Idx → EReal) : Cert.Spec.Layer where
  W1 i j := W1 (ix3 k i j)
  b1 j := b1 (ix2 k j)
  gamma j := ga (ix2 k j)
  beta j := be (ix2 k j)
  rm j := rm (ix2 k j)
  rv j := rv (ix2 k j)
  W2 i j := W2 (ix3 k i j)
  b2 j := b2 (ix2 k j)

def nodeArr (x : (⟨2, ![100000, 64]⟩ : Shape).Idx → EReal) : Cert.Spec.Arr 100000 64 := fun n j => x (ix2 n j)

def mat {a b : Nat} (w : (⟨2, ![a, b]⟩ : Shape).Idx → EReal) : Fin a → Fin b → EReal := fun i j => w (ix2 i j)

def vec {a : Nat} (v : (⟨1, ![a]⟩ : Shape).Idx → EReal) : Fin a → EReal := fun i => v (ix1 i)

def edgeWords (ei : (⟨2, ![2, 1600000]⟩ : Shape).Idx → BitVec 32) : Fin 2 → Fin 1600000 → BitVec 32 := fun r e => ei (ix2 r e)

def batchWords (bt : (⟨1, ![100000]⟩ : Shape).Idx → BitVec 32) : Fin 100000 → BitVec 32 := fun n => bt (ix1 n)

end Cert.Params

end
-- ==== Proof.LibEdgeAgg.lean ====
import Idealize.ShloMosaic.PureOps
import Idealize.ShloMosaic.PureOps.Ideal
import Idealize.ShloMosaic.Lib.ValueIdx

noncomputable section

namespace EdgeAgg

open Idealize.ShloMosaic Idealize.ShloMosaic.ValueIdx
open scoped BigOperators

variable {α : Type}

abbrev lookupDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ :=
  ⟨[1], [0], [], [], [0], 1, ![1, C], wf⟩

def clampTo (N : Nat) (hN : 0 < N) {w : Nat} (v : BitVec w) : Fin N := ⟨min v.toInt.toNat (N - 1), by omega⟩

theorem lookup_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (rows : IVec ⟨2, ![P, 1]⟩ w) (e : Fin P) (q : Fin C) :
    Host.gather (lookupDims N C P wf) x rows (ix2 e q) = x (ix2 (clampTo N hN (rows (ix2 e (0 : Fin 1)))) q) := by
  have hsi : (lookupDims N C P wf).siIdx (ix2 e q) ⟨0, Nat.one_pos⟩ = ix2 e (0 : Fin 1) :=
    funext fun b => match b with | ⟨0, _⟩ => rfl | ⟨1, _⟩ => rfl
  refine congrArg x (funext fun a => Fin.ext ?_)
  match a with
  | ⟨0, _⟩ => exact congrArg (fun i => min (rows i).toInt.toNat (N - 1)) hsi
  | ⟨1, _⟩ => exact Nat.zero_add _

/-- An update lands on an entry exactly when, on every axis, its window's start plus its window coordinate is the entry's. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    refine Option.some_inj.trans ⟨fun e a => ?_, fun e => funext fun a => Fin.ext ?_⟩
    · rw [← e]; exact (Int.toNat_of_nonneg (h a).1).symm
    · show (d.start j idx a + (d.window j a : Int)).toNat = (i a).val
      rw [e a]; exact Int.toNat_natCast _
  · rename_i h
    exact ⟨(nomatch ·), fun e => (h fun a => by rw [e a]; exact ⟨Int.natCast_nonneg _, by exact_mod_cast (i a).isLt⟩).elim⟩

abbrev accumDims (N C P : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ :=
  ⟨[1], [0], [0], 1, wf⟩

section Accum

variable {N C P w : Nat} (wf : ScatterDims.WF ⟨2, ![N, C]⟩ ⟨2, ![P, 1]⟩ ⟨2, ![P, C]⟩ [1] [0] [0] 1)
  (dst : IVec ⟨2, ![P, 1]⟩ w)

theorem accum_lands_iff (e : Fin P) (c : Fin C) (n : Fin N) (q : Fin C) :
    (accumDims N C P wf).resultIdx? (ix2 e c) dst = some (ix2 n q)
      ↔ c = q ∧ (dst (ix2 e (0 : Fin 1))).toInt = (n.val : Int) := by
  have h0 : (accumDims N C P wf).start (ix2 e c) dst 0 = (dst (ix2 e (0 : Fin 1))).toInt :=
    congrArg (fun i => (dst i).toInt) (funext fun b => match b with | ⟨0, _⟩ => rfl | ⟨1, _⟩ => rfl :
      (accumDims N C P wf).siIdx (ix2 e c) ⟨0, Nat.one_pos⟩ = ix2 e (0 : Fin 1))
  rw [resultIdx?_eq_some_iff, Fin.forall_fin_two, h0, Fin.ext_iff (a := c)]
  show _ + ((0 : Nat) : Int) = (n.val : Int) ∧ (0 : Int) + (c.val : Int) = (q.val : Int) ↔ _
  omega

theorem accum_apply (acc : (⟨2, ![N, C]⟩ : Shape).Idx → EReal) (upd : (⟨2, ![P, C]⟩ : Shape).Idx → EReal)
    (n : Fin N) (q : Fin C) :
    Ideal.hostScatterAdd (accumDims N C P wf) acc dst upd (ix2 n q)
      = acc (ix2 n q) + ∑ e ∈ Finset.univ.filter (fun e : Fin P => (dst (ix2 e (0 : Fin 1))).toInt = (n.val : Int)),
          upd (ix2 e q) := by
  unfold Ideal.hostScatterAdd
  rw [Finset.sum_filter, sum_idx2, Finset.sum_filter]
  simp only [accum_lands_iff, ite_and, Finset.sum_ite_eq', Finset.mem_univ, if_true]

end Accum

end EdgeAgg

end
-- ==== Proof.KI_Host.lean ====
import proofs.«405115_j6640019439791_2_alg».proof.Proof.Gen.KernelIdeal.Launch
import proofs.«405115_j6640019439791_2_alg».proof.Proof.Spec
import proofs.«405115_j6640019439791_2_alg».proof.Proof.EdgeMaps
import proofs.«405115_j6640019439791_2_alg».proof.Proof.Params
import proofs.«405115_j6640019439791_2_alg».proof.Proof.LibEdgeAgg
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.StableHlo Idealize.ShloMosaic.ValueIdx
open scoped BigOperators

theorem stack_mat_read (o : Nat) (X : S3x64x64.Idx → EReal) (hs : S3x64x64.Slices ![o, 0, 0] S1x64x64)
    (hc : S1x64x64.ShapeCasts S64x64) (ℓ : Fin 3) (hℓ : ℓ.val = o) (i j : Fin 64) :
    shapeCast S64x64 (extractStridedSlice S1x64x64 ![o, 0, 0] X hs) hc (ix2 i j) = X (ix3 ℓ i j) := by
  rw [shapeCast_1ab_ab_apply]
  exact extractStridedSlice_apply _ _ _ _ _ (fun a => by
    match a with
    | ⟨0, _⟩ => exact hℓ
    | ⟨1, _⟩ => exact (Nat.zero_add _).symm
    | ⟨2, _⟩ => exact (Nat.zero_add _).symm)

theorem stack_row_read (o : Nat) (X : S3x64.Idx → EReal) (hs : S3x64.Slices ![o, 0] S1x64)
    (hc1 : S1x64.ShapeCasts S64) (hc2 : S64.ShapeCasts S1x64) (ℓ : Fin 3) (hℓ : ℓ.val = o) (u : Fin 1) (k : Fin 64) :
    shapeCast S1x64 (shapeCast S64 (extractStridedSlice S1x64 ![o, 0] X hs) hc1) hc2 (ix2 u k) = X (ix2 ℓ k) := by
  rw [shapeCast_a_1a_apply, shapeCast_1a_a_apply]
  exact slice2_axis0_apply o X hs 0 k ℓ (by rw [hℓ]; rfl)

theorem edge_row_read (o : Nat) (X : IVec S2x1600000 32) (hs : S2x1600000.Slices ![o, 0] S1x1600000)
    (hc : S1x1600000.ShapeCasts S1600000) (r : Fin 2) (hr : r.val = o) (e : Fin 1600000) :
    shapeCast S1600000 (extractStridedSlice S1x1600000 ![o, 0] X hs) hc (ix1 e) = X (ix2 r e) := by
  rw [shapeCast_1a_a_apply]
  exact slice2_axis0_apply o X hs 0 e r (by rw [hr]; rfl)

theorem node_column_read {α : Type} (x : S100000.Idx → α) (hc : S100000.ShapeCasts S100000x1) (n : Fin 100000)
    (u : Fin 1) : shapeCast S100000x1 x hc (ix2 n u) = x (ix1 n) :=
  shapeCast_apply x hc _ _ (by
    have hu : u.val = 0 := by omega
    rw [Shape.rowMajor_val_two, Shape.rowMajor_val_one]
    show n.val = n.val * 1 + u.val
    omega)

theorem edge_column_read {α : Type} (v : S1600000.Idx → α) (e : Fin 1600000) (u : Fin 1) :
    broadcastInDim S1600000x1 ![0] bcast_S1600000_S1600000x1_0 v (ix2 e u) = v (ix1 e) :=
  broadcastInDim_apply _ _ _ _ _ (fun a => by
    match a with
    | ⟨0, _⟩ => exact (if_neg (show ¬ (1600000 : Nat) = 1 by decide)).symm)

def wrapped (v1 : IVec S1600000 32) : IVec S1600000 32 :=
  select (cmpi .slt v1 (broadcastInDim S1600000 ![] bcast_S_S1600000 (constantI S_ 32 0#32)))
    (addi v1 (broadcastInDim S1600000 ![] bcast_S_S1600000 (constantI S_ 32 100000#32))) v1

theorem wrapped_read (v1 : IVec S1600000 32) (e : Fin 1600000) :
    wrapped v1 (ix1 e) = Cert.EdgeMaps.wrap (v1 (ix1 e)) :=
  Cert.EdgeMaps.select_eq_wrap _

def carried (tbl : FVec Ideal S100000x64 .bf16) (v1 : IVec S1600000 32) : FVec Ideal S1600000x64 .f32 :=
  extf .f32 (Host.gather gather_S100000x64_S1600000x1_S1600000x64_1_0_n_n_0_1_164 tbl
    (broadcastInDim S1600000x1 ![0] bcast_S1600000_S1600000x1_0 (wrapped v1))) bitsLt_bf16_f32

theorem carried_read (tbl : FVec Ideal S100000x64 .bf16) (v1 : IVec S1600000 32) (e : Fin 1600000) (q : Fin 64) :
    carried tbl v1 (ix2 e q) = tbl (ix2 (Cert.EdgeMaps.clampRow (Cert.EdgeMaps.wrap (v1 (ix1 e)))) q) := by
  show Host.gather (EdgeAgg.lookupDims 100000 64 1600000
    Facts₀.gather_S100000x64_S1600000x1_S1600000x64_1_0_n_n_0_1_164_wf) tbl _ (ix2 e q) = _
  rw [EdgeAgg.lookup_apply (N := 100000) (show 0 < 100000 by decide), edge_column_read, wrapped_read]
  rfl

def zeros : FVec Ideal S100000x64 .f32 :=
  broadcastInDim S100000x64 ![] bcast_S_S100000x64 (constant (F := Ideal) S_ .f32 0x00000000#32)

theorem zeros_read (i : S100000x64.Idx) : zeros i = (0 : EReal) := Ideal.ofBits_zero_f32

def neighbourSum (tbl : FVec Ideal S100000x64 .bf16) (v1 v3 : IVec S1600000 32) : FVec Ideal S100000x64 .f32 :=
  Host.scatterAdd scatter_S100000x64_S1600000x1_S1600000x64_1_0_0_1 zeros
    (broadcastInDim S1600000x1 ![0] bcast_S1600000_S1600000x1_0 v3) (carried tbl v1)

theorem neighbourSum_eq (tbl : FVec Ideal S100000x64 .bf16) (v1 v3 : IVec S1600000 32) :
    neighbourSum tbl v1 v3 = Ideal.hostScatterAdd
      (EdgeAgg.accumDims 100000 64 1600000 Facts₀.scatter_S100000x64_S1600000x1_S1600000x64_1_0_0_1_wf) zeros
      (broadcastInDim S1600000x1 ![0] bcast_S1600000_S1600000x1_0 v3) (carried tbl v1) := rfl

theorem neighbourSum_read (tbl : FVec Ideal S100000x64 .bf16) (v1 v3 : IVec S1600000 32) (X : IVec S2x1600000 32)
    (h1 : ∀ e, v1 (ix1 e) = X (ix2 (0 : Fin 2) e)) (h3 : ∀ e, v3 (ix1 e) = X (ix2 (1 : Fin 2) e))
    (n : Fin 100000) (q : Fin 64) :
    neighbourSum tbl v1 v3 (ix2 n q)
      = Cert.Spec.agg (Cert.EdgeMaps.srcOf (Cert.Params.edgeWords X)) (Cert.EdgeMaps.hitOf (Cert.Params.edgeWords X))
          (Cert.Params.nodeArr tbl) n q := by
  rw [neighbourSum_eq, EdgeAgg.accum_apply, zeros_read, zero_add]
  unfold Cert.Spec.agg
  refine Finset.sum_congr (Finset.filter_congr fun e _ => ?_) fun e _ => ?_
  · rw [edge_column_read, h3]
    exact Iff.rfl
  · rw [carried_read, h1]
    rfl

theorem host0_v1 (W : Valuation τ sig (Elt Ideal)) (e : Fin 1600000) :
    (StableHlo.after (hostOps0 (F := Ideal)) W (Proc.devRef .tc main_v1) : IVec S1600000 32) (ix1 e)
      = (W (Proc.devRef .tc main_arg13) : IVec S2x1600000 32) (ix2 (0 : Fin 2) e) := by
  dsimp only [hostOps0]; after_results_simp
  exact edge_row_read 0 _ _ _ (0 : Fin 2) rfl e

theorem host0_v3 (W : Valuation τ sig (Elt Ideal)) (e : Fin 1600000) :
    (StableHlo.after (hostOps0 (F := Ideal)) W (Proc.devRef .tc main_v3) : IVec S1600000 32) (ix1 e)
      = (W (Proc.devRef .tc main_arg13) : IVec S2x1600000 32) (ix2 (1 : Fin 2) e) := by
  dsimp only [hostOps0]; after_results_simp
  exact edge_row_read 1 _ _ _ (1 : Fin 2) rfl e

theorem host0_v5 (W : Valuation τ sig (Elt Ideal)) (n : Fin 100000) (u : Fin 1) :
    (StableHlo.after (hostOps0 (F := Ideal)) W (Proc.devRef .tc main_v5) : IVec S100000x1 32) (ix2 n u)
      = (W (Proc.devRef .tc main_arg14) : IVec S100000 32) (ix1 n) := by
  dsimp only [hostOps0]; after_results_simp
  exact node_column_read _ _ n u

theorem host0_agg (W : Valuation τ sig (Elt Ideal)) (n : Fin 100000) (q : Fin 64) :
    (StableHlo.after (hostOps0 (F := Ideal)) W (Proc.devRef .tc main_v16) : S100000x64.Idx → EReal) (ix2 n q)
      = Cert.Spec.agg (Cert.EdgeMaps.srcOf (Cert.Params.edgeWords (W (Proc.devRef .tc main_arg13))))
          (Cert.EdgeMaps.hitOf (Cert.Params.edgeWords (W (Proc.devRef .tc main_arg13))))
          (Cert.Params.nodeArr (W (Proc.devRef .tc main_arg0))) n q := by
  dsimp only [hostOps0]; after_results_simp
  exact neighbourSum_read _ _ _ (W (Proc.devRef .tc main_arg13))
    (fun e => edge_row_read 0 _ _ _ (0 : Fin 2) rfl e) (fun e => edge_row_read 1 _ _ _ (1 : Fin 2) rfl e) n q

theorem host0_W1 (W : Valuation τ sig (Elt Ideal)) (i j : Fin 64) :
    (StableHlo.after (hostOps0 (F := Ideal)) W (Proc.devRef .tc main_v18) : S64x64.Idx → EReal) (ix2 i j)
      = (W (Proc.devRef .tc main_arg1) : S3x64x64.Idx → EReal) (ix3 (0 : Fin 3) i j) := by
  dsimp only [hostOps0]; after_results_simp
  exact stack_mat_read 0 _ _ _ (0 : Fin 3) rfl i j

theorem host0_b1 (W : Valuation τ sig (Elt Ideal)) (u : Fin 1) (k : Fin 64) :
    (StableHlo.after (hostOps0 (F := Ideal)) W (Proc.devRef .tc main_v33) : S1x64.Idx → EReal) (ix2 u k)
      = (W (Proc.devRef .tc main_arg2) : S3x64.Idx → EReal) (ix2 (0 : Fin 3) k) := by
  dsimp only [hostOps0]; after_results_simp
  exact stack_row_read 0 _ _ _ _ (0 : Fin 3) rfl u k

theorem host0_gamma (W : Valuation τ sig (Elt Ideal)) (u : Fin 1) (k : Fin 64) :
    (StableHlo.after (hostOps0 (F := Ideal)) W (Proc.devRef .tc main_v34) : S1x64.Idx → EReal) (ix2 u k)
      = (W (Proc.devRef .tc main_arg3) : S3x64.Idx → EReal) (ix2 (0 : Fin 3) k) := by
  dsimp only [hostOps0]; after_results_simp
  exact stack_row_read 0 _ _ _ _ (0 : Fin 3) rfl u k

theorem host0_beta (W : Valuation τ sig (Elt Ideal)) (u : Fin 1) (k : Fin 64) :
    (StableHlo.after (hostOps0 (F := Ideal)) W (Proc.devRef .tc main_v35) : S1x64.Idx → EReal) (ix2 u k)
      = (W (Proc.devRef .tc main_arg4) : S3x64.Idx → EReal) (ix2 (0 : Fin 3) k) := by
  dsimp only [hostOps0]; after_results_simp
  exact stack_row_read 0 _ _ _ _ (0 : Fin 3) rfl u k

theorem host0_rm (W : Valuation τ sig (Elt Ideal)) (u : Fin 1) (k : Fin 64) :
    (StableHlo.after (hostOps0 (F := Ideal)) W (Proc.devRef .tc main_v36) : S1x64.Idx → EReal) (ix2 u k)
      = (W (Proc.devRef .tc main_arg5) : S3x64.Idx → EReal) (ix2 (0 : Fin 3) k) := by
  dsimp only [hostOps0]; after_results_simp
  exact stack_row_read 0 _ _ _ _ (0 : Fin 3) rfl u k

theorem host0_rv (W : Valuation τ sig (Elt Ideal)) (u : Fin 1) (k : Fin 64) :
    (StableHlo.after (hostOps0 (F := Ideal)) W (Proc.devRef .tc main_v37) : S1x64.Idx → EReal) (ix2 u k)
      = (W (Proc.devRef .tc main_arg6) : S3x64.Idx → EReal) (ix2 (0 : Fin 3) k) := by
  dsimp only [hostOps0]; after_results_simp
  exact stack_row_read 0 _ _ _ _ (0 : Fin 3) rfl u k

theorem host0_W2 (W : Valuation τ sig (Elt Ideal)) (i j : Fin 64) :
    (StableHlo.after (hostOps0 (F := Ideal)) W (Proc.devRef .tc main_v30) : S64x64.Idx → EReal) (ix2 i j)
      = (W (Proc.devRef .tc main_arg7) : S3x64x64.Idx → EReal) (ix3 (0 : Fin 3) i j) := by
  dsimp only [hostOps0]; after_results_simp
  exact stack_mat_read 0 _ _ _ (0 : Fin 3) rfl i j

theorem host0_b2 (W : Valuation τ sig (Elt Ideal)) (u : Fin 1) (k : Fin 64) :
    (StableHlo.after (hostOps0 (F := Ideal)) W (Proc.devRef .tc main_v38) : S1x64.Idx → EReal) (ix2 u k)
      = (W (Proc.devRef .tc main_arg8) : S3x64.Idx → EReal) (ix2 (0 : Fin 3) k) := by
  dsimp only [hostOps0]; after_results_simp
  exact stack_row_read 0 _ _ _ _ (0 : Fin 3) rfl u k

theorem host1_agg (W : Valuation τ sig (Elt Ideal)) (X : IVec S2x1600000 32)
    (h1 : ∀ e, (W (Proc.devRef .tc main_v1) : IVec S1600000 32) (ix1 e) = X (ix2 (0 : Fin 2) e))
    (h3 : ∀ e, (W (Proc.devRef .tc main_v3) : IVec S1600000 32) (ix1 e) = X (ix2 (1 : Fin 2) e))
    (n : Fin 100000) (q : Fin 64) :
    (StableHlo.after (hostOps1 (F := Ideal)) W (Proc.devRef .tc main_v50) : S100000x64.Idx → EReal) (ix2 n q)
      = Cert.Spec.agg (Cert.EdgeMaps.srcOf (Cert.Params.edgeWords X)) (Cert.EdgeMaps.hitOf (Cert.Params.edgeWords X))
          (Cert.Params.nodeArr (W (Proc.devRef .tc main_v39_1))) n q := by
  dsimp only [hostOps1]; after_results_simp
  exact neighbourSum_read _ _ _ X h1 h3 n q

theorem host1_W1 (W : Valuation τ sig (Elt Ideal)) (i j : Fin 64) :
    (StableHlo.after (hostOps1 (F := Ideal)) W (Proc.devRef .tc main_v52) : S64x64.Idx → EReal) (ix2 i j)
      = (W (Proc.devRef .tc main_arg1) : S3x64x64.Idx → EReal) (ix3 (1 : Fin 3) i j) := by
  dsimp only [hostOps1]; after_results_simp
  exact stack_mat_read 1 _ _ _ (1 : Fin 3) rfl i j

theorem host1_b1 (W : Valuation τ sig (Elt Ideal)) (u : Fin 1) (k : Fin 64) :
    (StableHlo.after (hostOps1 (F := Ideal)) W (Proc.devRef .tc main_v67) : S1x64.Idx → EReal) (ix2 u k)
      = (W (Proc.devRef .tc main_arg2) : S3x64.Idx → EReal) (ix2 (1 : Fin 3) k) := by
  dsimp only [hostOps1]; after_results_simp
  exact stack_row_read 1 _ _ _ _ (1 : Fin 3) rfl u k

theorem host1_gamma (W : Valuation τ sig (Elt Ideal)) (u : Fin 1) (k : Fin 64) :
    (StableHlo.after (hostOps1 (F := Ideal)) W (Proc.devRef .tc main_v68) : S1x64.Idx → EReal) (ix2 u k)
      = (W (Proc.devRef .tc main_arg3) : S3x64.Idx → EReal) (ix2 (1 : Fin 3) k) := by
  dsimp only [hostOps1]; after_results_simp
  exact stack_row_read 1 _ _ _ _ (1 : Fin 3) rfl u k

theorem host1_beta (W : Valuation τ sig (Elt Ideal)) (u : Fin 1) (k : Fin 64) :
    (StableHlo.after (hostOps1 (F := Ideal)) W (Proc.devRef .tc main_v69) : S1x64.Idx → EReal) (ix2 u k)
      = (W (Proc.devRef .tc main_arg4) : S3x64.Idx → EReal) (ix2 (1 : Fin 3) k) := by
  dsimp only [hostOps1]; after_results_simp
  exact stack_row_read 1 _ _ _ _ (1 : Fin 3) rfl u k

theorem host1_rm (W : Valuation τ sig (Elt Ideal)) (u : Fin 1) (k : Fin 64) :
    (StableHlo.after (hostOps1 (F := Ideal)) W (Proc.devRef .tc main_v70) : S1x64.Idx → EReal) (ix2 u k)
      = (W (Proc.devRef .tc main_arg5) : S3x64.Idx → EReal) (ix2 (1 : Fin 3) k) := by
  dsimp only [hostOps1]; after_results_simp
  exact stack_row_read 1 _ _ _ _ (1 : Fin 3) rfl u k

theorem host1_rv (W : Valuation τ sig (Elt Ideal)) (u : Fin 1) (k : Fin 64) :
    (StableHlo.after (hostOps1 (F := Ideal)) W (Proc.devRef .tc main_v71) : S1x64.Idx → EReal) (ix2 u k)
      = (W (Proc.devRef .tc main_arg6) : S3x64.Idx → EReal) (ix2 (1 : Fin 3) k) := by
  dsimp only [hostOps1]; after_results_simp
  exact stack_row_read 1 _ _ _ _ (1 : Fin 3) rfl u k

theorem host1_W2 (W : Valuation τ sig (Elt Ideal)) (i j : Fin 64) :
    (StableHlo.after (hostOps1 (F := Ideal)) W (Proc.devRef .tc main_v64) : S64x64.Idx → EReal) (ix2 i j)
      = (W (Proc.devRef .tc main_arg7) : S3x64x64.Idx → EReal) (ix3 (1 : Fin 3) i j) := by
  dsimp only [hostOps1]; after_results_simp
  exact stack_mat_read 1 _ _ _ (1 : Fin 3) rfl i j

theorem host1_b2 (W : Valuation τ sig (Elt Ideal)) (u : Fin 1) (k : Fin 64) :
    (StableHlo.after (hostOps1 (F := Ideal)) W (Proc.devRef .tc main_v72) : S1x64.Idx → EReal) (ix2 u k)
      = (W (Proc.devRef .tc main_arg8) : S3x64.Idx → EReal) (ix2 (1 : Fin 3) k) := by
  dsimp only [hostOps1]; after_results_simp
  exact stack_row_read 1 _ _ _ _ (1 : Fin 3) rfl u k

theorem host2_agg (W : Valuation τ sig (Elt Ideal)) (X : IVec S2x1600000 32)
    (h1 : ∀ e, (W (Proc.devRef .tc main_v1) : IVec S1600000 32) (ix1 e) = X (ix2 (0 : Fin 2) e))
    (h3 : ∀ e, (W (Proc.devRef .tc main_v3) : IVec S1600000 32) (ix1 e) = X (ix2 (1 : Fin 2) e))
    (n : Fin 100000) (q : Fin 64) :
    (StableHlo.after (hostOps2 (F := Ideal)) W (Proc.devRef .tc main_v84) : S100000x64.Idx → EReal) (ix2 n q)
      = Cert.Spec.agg (Cert.EdgeMaps.srcOf (Cert.Params.edgeWords X)) (Cert.EdgeMaps.hitOf (Cert.Params.edgeWords X))
          (Cert.Params.nodeArr (W (Proc.devRef .tc main_v73_1))) n q := by
  dsimp only [hostOps2]; after_results_simp
  exact neighbourSum_read _ _ _ X h1 h3 n q

theorem host2_W1 (W : Valuation τ sig (Elt Ideal)) (i j : Fin 64) :
    (StableHlo.after (hostOps2 (F := Ideal)) W (Proc.devRef .tc main_v86) : S64x64.Idx → EReal) (ix2 i j)
      = (W (Proc.devRef .tc main_arg1) : S3x64x64.Idx → EReal) (ix3 (2 : Fin 3) i j) := by
  dsimp only [hostOps2]; after_results_simp
  exact stack_mat_read 2 _ _ _ (2 : Fin 3) rfl i j

theorem host2_b1 (W : Valuation τ sig (Elt Ideal)) (u : Fin 1) (k : Fin 64) :
    (StableHlo.after (hostOps2 (F := Ideal)) W (Proc.devRef .tc main_v101) : S1x64.Idx → EReal) (ix2 u k)
      = (W (Proc.devRef .tc main_arg2) : S3x64.Idx → EReal) (ix2 (2 : Fin 3) k) := by
  dsimp only [hostOps2]; after_results_simp
  exact stack_row_read 2 _ _ _ _ (2 : Fin 3) rfl u k

theorem host2_gamma (W : Valuation τ sig (Elt Ideal)) (u : Fin 1) (k : Fin 64) :
    (StableHlo.after (hostOps2 (F := Ideal)) W (Proc.devRef .tc main_v102) : S1x64.Idx → EReal) (ix2 u k)
      = (W (Proc.devRef .tc main_arg3) : S3x64.Idx → EReal) (ix2 (2 : Fin 3) k) := by
  dsimp only [hostOps2]; after_results_simp
  exact stack_row_read 2 _ _ _ _ (2 : Fin 3) rfl u k

theorem host2_beta (W : Valuation τ sig (Elt Ideal)) (u : Fin 1) (k : Fin 64) :
    (StableHlo.after (hostOps2 (F := Ideal)) W (Proc.devRef .tc main_v103) : S1x64.Idx → EReal) (ix2 u k)
      = (W (Proc.devRef .tc main_arg4) : S3x64.Idx → EReal) (ix2 (2 : Fin 3) k) := by
  dsimp only [hostOps2]; after_results_simp
  exact stack_row_read 2 _ _ _ _ (2 : Fin 3) rfl u k

theorem host2_rm (W : Valuation τ sig (Elt Ideal)) (u : Fin 1) (k : Fin 64) :
    (StableHlo.after (hostOps2 (F := Ideal)) W (Proc.devRef .tc main_v104) : S1x64.Idx → EReal) (ix2 u k)
      = (W (Proc.devRef .tc main_arg5) : S3x64.Idx → EReal) (ix2 (2 : Fin 3) k) := by
  dsimp only [hostOps2]; after_results_simp
  exact stack_row_read 2 _ _ _ _ (2 : Fin 3) rfl u k

theorem host2_rv (W : Valuation τ sig (Elt Ideal)) (u : Fin 1) (k : Fin 64) :
    (StableHlo.after (hostOps2 (F := Ideal)) W (Proc.devRef .tc main_v105) : S1x64.Idx → EReal) (ix2 u k)
      = (W (Proc.devRef .tc main_arg6) : S3x64.Idx → EReal) (ix2 (2 : Fin 3) k) := by
  dsimp only [hostOps2]; after_results_simp
  exact stack_row_read 2 _ _ _ _ (2 : Fin 3) rfl u k

theorem host2_W2 (W : Valuation τ sig (Elt Ideal)) (i j : Fin 64) :
    (StableHlo.after (hostOps2 (F := Ideal)) W (Proc.devRef .tc main_v98) : S64x64.Idx → EReal) (ix2 i j)
      = (W (Proc.devRef .tc main_arg7) : S3x64x64.Idx → EReal) (ix3 (2 : Fin 3) i j) := by
  dsimp only [hostOps2]; after_results_simp
  exact stack_mat_read 2 _ _ _ (2 : Fin 3) rfl i j

theorem host2_b2 (W : Valuation τ sig (Elt Ideal)) (u : Fin 1) (k : Fin 64) :
    (StableHlo.after (hostOps2 (F := Ideal)) W (Proc.devRef .tc main_v106) : S1x64.Idx → EReal) (ix2 u k)
      = (W (Proc.devRef .tc main_arg8) : S3x64.Idx → EReal) (ix2 (2 : Fin 3) k) := by
  dsimp only [hostOps2]; after_results_simp
  exact stack_row_read 2 _ _ _ _ (2 : Fin 3) rfl u k

theorem host2_bc1 (W : Valuation τ sig (Elt Ideal)) (u : Fin 1) (k : Fin 64) :
    (StableHlo.after (hostOps2 (F := Ideal)) W (Proc.devRef .tc main_v107) : S1x64.Idx → EReal) (ix2 u k)
      = (W (Proc.devRef .tc main_arg10) : S64.Idx → EReal) (ix1 k) := by
  dsimp only [hostOps2]; after_results_simp
  exact shapeCast_a_1a_apply _ _ u k

theorem host2_bc2 (W : Valuation τ sig (Elt Ideal)) (u : Fin 1) (k : Fin 10) :
    (StableHlo.after (hostOps2 (F := Ideal)) W (Proc.devRef .tc main_v108) : S1x10.Idx → EReal) (ix2 u k)
      = (W (Proc.devRef .tc main_arg12) : S10.Idx → EReal) (ix1 k) := by
  dsimp only [hostOps2]; after_results_simp
  exact shapeCast_a_1a_apply _ _ u k

end Cert.KernelIdeal.HandValue

end
-- ==== Proof.KI_Val0.lean ====
import proofs.«405115_j6640019439791_2_alg».proof.Proof.KI_R0
import proofs.«405115_j6640019439791_2_alg».proof.Proof.Gen.KernelIdeal.Points
import proofs.«405115_j6640019439791_2_alg».proof.Proof.Gen.KernelIdeal.Skeleton
import proofs.«405115_j6640019439791_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Idealize.ShloMosaic Idealize.ShloMosaic.ValueIdx Cert.KernelIdeal Cert.KernelIdeal.Gen

def epsK : EReal := Ideal.ofBits .f32 0x3727C5AC#32

def layerOf (W1 : Vec Ideal S64x64 .f32) (b1 ga be rm rv : Vec Ideal S1x64 .f32) (W2 : Vec Ideal S64x64 .f32)
    (b2 : Vec Ideal S1x64 .f32) : Cert.Spec.Layer where
  W1 i k := W1 (ix2 i k)
  b1 k := b1 (ix2 (0 : Fin 1) k)
  gamma k := ga (ix2 (0 : Fin 1) k)
  beta k := be (ix2 (0 : Fin 1) k)
  rm k := rm (ix2 (0 : Fin 1) k)
  rv k := rv (ix2 (0 : Fin 1) k)
  W2 k q := W2 (ix2 k q)
  b2 q := b2 (ix2 (0 : Fin 1) q)

abbrev D := dot_S5000x64_S64x64_S5000x64_1_0_0_1_n_n

-- A product into the zero block is, at (p, q), the sum over the 64 inner positions.
theorem rowProduct_apply {φ₁ φ₂ : FTy} (A : FVec Ideal S5000x64 φ₁) (B : FVec Ideal S64x64 φ₂) (p : Fin 5000) (q : Fin 64) :
    matmul D none A B (constant S5000x64 .f32 0x00000000#32) (ix2 p q) = ∑ j : Fin 64, A (ix2 p j) * B (ix2 j q) := by
  simp only [matmul]
  rw [Ideal.matmul_constant_zero_apply, ← Equiv.sum_comp (contrEquiv1 D 64 (by decide) (by decide)).symm]
  refine Finset.sum_congr rfl fun j _ => ?_
  have e := contrEquiv1_symm_val D 64 (by decide) (by decide) j
  rw [show D.lhsIdx (ix2 p q) ((contrEquiv1 D 64 (by decide) (by decide)).symm j) = ix2 p j from Shape.idx_ext₂ rfl e,
    show D.rhsIdx (ix2 p q) ((contrEquiv1 D 64 (by decide) (by decide)).symm j) = ix2 j q from Shape.idx_ext₂ e rfl]

theorem rsqrt_apply {s : Shape} {φ : FTy} (x : FVec Ideal s φ) (i : s.Idx) : rsqrt x i = Ideal.rsqrt (x i) := rfl

-- The casts are the identity on the extended reals: the output block at (p, q) is the perceptron of row p of `h + agg`.
theorem pay0_apply (h agg : Vec Ideal S5000x64 .f32) (W1 W2 : Vec Ideal S64x64 .f32) (b1 ga be rm rv b2 : Vec Ideal S1x64 .f32)
    (p : Fin 5000) (q : Fin 64) :
    k0_pay1 (F := Ideal) (k0_pay3 h agg W1 b1 rv ga rm be) (k0_pay4 W2) b2 (ix2 p q)
      = Cert.Spec.mlp epsK (layerOf W1 b1 ga be rm rv W2 b2) (fun j => h (ix2 p j) + agg (ix2 p j)) q := by
  unfold k0_pay1 k0_pay3 k0_pay4
  simp only [truncf_apply, addf_apply, mulf_apply, subf_apply, maximumf_apply, shapeCast_self, broadcastTo_1b_ab_apply,
    broadcast_apply, rsqrt_apply, rowProduct_apply, Ideal.ofBits_def, Ideal.ofBits_zero_f32]
  rfl

open Cert.KernelIdeal.Hand
open Idealize.ShloMosaic.TcCoe
open Idealize.ShloMosaic.Pipeline (Dat Cfg Window)

variable (V : (c : Dev nD) → (b : Ref sig .tc) → Buf (Elt Ideal) ((c : Thread nD τ).loc b))

abbrev nodes0 (c : Dev nD) : Vec Ideal S100000x64 .f32 := V c (Pipeline.arrRef spec0 0)
abbrev sums0 (c : Dev nD) : Vec Ideal S100000x64 .f32 := V c (Pipeline.arrRef spec0 1)

abbrev layer0 (c : Dev nD) : Cert.Spec.Layer :=
  layerOf (V c (Pipeline.arrRef spec0 2)) (V c (Pipeline.arrRef spec0 3)) (V c (Pipeline.arrRef spec0 4))
    (V c (Pipeline.arrRef spec0 5)) (V c (Pipeline.arrRef spec0 6)) (V c (Pipeline.arrRef spec0 7))
    (V c (Pipeline.arrRef spec0 8)) (V c (Pipeline.arrRef spec0 9))

def G0 (c : Dev nD) : S100000x64.Idx → EReal := fun i =>
  Cert.Spec.mlp epsK (layer0 V c) (fun j => nodes0 V c (ix2 (i 0) j) + sums0 V c (ix2 (i 0) j)) (i 1)

def rowAt (t : Fin 20) (p : Fin 5000) : Fin 100000 := ⟨t.val * 5000 + p.val, by omega⟩

-- Row r is position r % 5000 of block r / 5000.
theorem row_split (i : S100000x64.Idx) : ∃ (t : Fin 20) (p : Fin 5000) (q : Fin 64), ix2 (rowAt t p) q = i :=
  ⟨⟨(i 0).val / 5000, by have := idx2_lt0 i; omega⟩, ⟨(i 0).val % 5000, Nat.mod_lt _ (by decide)⟩, i 1,
    Shape.idx_ext₂ (Nat.div_add_mod' _ 5000) rfl⟩

-- If every point writes back its block of `G` and the blocks reach every index, the array ends at `G`.
theorem arrAt_eq_of_emb {cfg : Cfg sig Λ₀} {c : Dev nD} (dat : Dat τ (Elt Ideal) Unit ℕ (UR sig nD τ) ℕ cfg c) (w : Fin cfg.W)
    (G : Buf (Elt Ideal) ((cfg.win w).arr.view.loc (c.tc : Thread nD τ))) (hf : ∀ t, (cfg.win w).flush t = true)
    (hG : ∀ t, dat.flushed w t = ((cfg.win w).blk t).view.read (Elt Ideal) G)
    (hc : ∀ i : ((cfg.win w).arr.view.loc (c.tc : Thread nD τ)).2.ty.Idx, ∃ t y, ((cfg.win w).blk t).view.emb y = i) :
    dat.arrAt w cfg.N = G :=
  dat.arrAt_eq_of_cover w G (fun t _ => hG t) fun i => by
    obtain ⟨t, y, rfl⟩ := hc i
    exact ⟨t, hf t, View.emb_mem_set _ y⟩

-- The index maps over the twenty points: the row blocks follow the point, the parameter blocks stay at zero.
theorem idx0 : ∀ t : Fin cfg0.N,
    (win0_0.index t 0 = t.val ∧ win0_0.index t 1 = 0 ∧ win0_1.index t 0 = t.val ∧ win0_1.index t 1 = 0
      ∧ win0_10.index t 0 = t.val ∧ win0_10.index t 1 = 0 ∧ win0_11.index t 0 = t.val ∧ win0_11.index t 1 = 0)
    ∧ (∀ a, win0_2.index t a = 0) ∧ (∀ a, win0_3.index t a = 0) ∧ (∀ a, win0_4.index t a = 0) ∧ (∀ a, win0_5.index t a = 0)
      ∧ (∀ a, win0_6.index t a = 0) ∧ (∀ a, win0_7.index t a = 0) ∧ (∀ a, win0_8.index t a = 0) ∧ (∀ a, win0_9.index t a = 0) :=
  (by decide +kernel : ∀ t : Fin grid0.N, _)

theorem pblk0_2 (c : Dev nD) (t : Fin cfg0.N) : iblk0 V c 2 t = V c (Pipeline.arrRef spec0 2) :=
  funext fun (y : S64x64.Idx) => congrArg (V c (Pipeline.arrRef spec0 2))
    (funext fun a => Fin.ext (win0_2.rect_emb_val_of_index_zero t a ((idx0 t).2.1 a) y))

theorem pblk0_3 (c : Dev nD) (t : Fin cfg0.N) : iblk0 V c 3 t = V c (Pipeline.arrRef spec0 3) :=
  funext fun (y : S1x64.Idx) => congrArg (V c (Pipeline.arrRef spec0 3))
    (funext fun a => Fin.ext (win0_3.rect_emb_val_of_index_zero t a ((idx0 t).2.2.1 a) y))

theorem pblk0_4 (c : Dev nD) (t : Fin cfg0.N) : iblk0 V c 4 t = V c (Pipeline.arrRef spec0 4) :=
  funext fun (y : S1x64.Idx) => congrArg (V c (Pipeline.arrRef spec0 4))
    (funext fun a => Fin.ext (win0_4.rect_emb_val_of_index_zero t a ((idx0 t).2.2.2.1 a) y))

theorem pblk0_5 (c : Dev nD) (t : Fin cfg0.N) : iblk0 V c 5 t = V c (Pipeline.arrRef spec0 5) :=
  funext fun (y : S1x64.Idx) => congrArg (V c (Pipeline.arrRef spec0 5))
    (funext fun a => Fin.ext (win0_5.rect_emb_val_of_index_zero t a ((idx0 t).2.2.2.2.1 a) y))

theorem pblk0_6 (c : Dev nD) (t : Fin cfg0.N) : iblk0 V c 6 t = V c (Pipeline.arrRef spec0 6) :=
  funext fun (y : S1x64.Idx) => congrArg (V c (Pipeline.arrRef spec0 6))
    (funext fun a => Fin.ext (win0_6.rect_emb_val_of_index_zero t a ((idx0 t).2.2.2.2.2.1 a) y))

theorem pblk0_7 (c : Dev nD) (t : Fin cfg0.N) : iblk0 V c 7 t = V c (Pipeline.arrRef spec0 7) :=
  funext fun (y : S1x64.Idx) => congrArg (V c (Pipeline.arrRef spec0 7))
    (funext fun a => Fin.ext (win0_7.rect_emb_val_of_index_zero t a ((idx0 t).2.2.2.2.2.2.1 a) y))

theorem pblk0_8 (c : Dev nD) (t : Fin cfg0.N) : iblk0 V c 8 t = V c (Pipeline.arrRef spec0 8) :=
  funext fun (y : S64x64.Idx) => congrArg (V c (Pipeline.arrRef spec0 8))
    (funext fun a => Fin.ext (win0_8.rect_emb_val_of_index_zero t a ((idx0 t).2.2.2.2.2.2.2.1 a) y))

theorem pblk0_9 (c : Dev nD) (t : Fin cfg0.N) : iblk0 V c 9 t = V c (Pipeline.arrRef spec0 9) :=
  funext fun (y : S1x64.Idx) => congrArg (V c (Pipeline.arrRef spec0 9))
    (funext fun a => Fin.ext (win0_9.rect_emb_val_of_index_zero t a ((idx0 t).2.2.2.2.2.2.2.2 a) y))

theorem rblk0_0 (c : Dev nD) (t : Fin cfg0.N) (p : Fin 5000) (j : Fin 64) :
    iblk0 V c 0 t (ix2 p j) = nodes0 V c (ix2 (rowAt t p) j) :=
  congrArg (nodes0 V c) (Shape.idx_ext₂ ((win0_0.rect_emb_val t _ 0).trans (by rw [(idx0 t).1.1]; rfl)) (win0_0.rect_emb_val_of_index_zero t 1 (idx0 t).1.2.1 _))

theorem rblk0_1 (c : Dev nD) (t : Fin cfg0.N) (p : Fin 5000) (j : Fin 64) :
    iblk0 V c 1 t (ix2 p j) = sums0 V c (ix2 (rowAt t p) j) :=
  congrArg (sums0 V c) (Shape.idx_ext₂ ((win0_1.rect_emb_val t _ 0).trans (by rw [(idx0 t).1.2.2.1]; rfl)) (win0_1.rect_emb_val_of_index_zero t 1 (idx0 t).1.2.2.2.1 _))

theorem emb0_10 (t : Fin cfg0.N) (p : Fin 5000) (q : Fin 64) :
    ((cfg0.win 10).blk t).view.emb (ix2 p q) = ix2 (rowAt t p) q :=
  Shape.idx_ext₂ ((win0_10.rect_emb_val t _ 0).trans (by rw [(idx0 t).1.2.2.2.2.1]; rfl)) (win0_10.rect_emb_val_of_index_zero t 1 (idx0 t).1.2.2.2.2.2.1 _)

theorem emb0_11 (t : Fin cfg0.N) (p : Fin 5000) (q : Fin 64) :
    ((cfg0.win 11).blk t).view.emb (ix2 p q) = ix2 (rowAt t p) q :=
  Shape.idx_ext₂ ((win0_11.rect_emb_val t _ 0).trans (by rw [(idx0 t).1.2.2.2.2.2.2.1]; rfl)) (win0_11.rect_emb_val_of_index_zero t 1 (idx0 t).1.2.2.2.2.2.2.2 _)

theorem out0_apply (c : Dev nD) (t : Fin cfg0.N) (p : Fin 5000) (q : Fin 64) :
    k0_pay1 (F := Ideal) (k0_pay3 (iblk0 V c 0 t) (iblk0 V c 1 t) (iblk0 V c 2 t) (iblk0 V c 3 t) (iblk0 V c 7 t) (iblk0 V c 4 t) (iblk0 V c 6 t) (iblk0 V c 5 t))
      (k0_pay4 (iblk0 V c 8 t)) (iblk0 V c 9 t) (ix2 p q) = G0 V c (ix2 (rowAt t p) q) := by
  rw [pblk0_2, pblk0_3, pblk0_4, pblk0_5, pblk0_6, pblk0_7, pblk0_8, pblk0_9, pay0_apply]
  unfold G0
  simp only [rblk0_0, rblk0_1]

theorem flushed0_10_eq (c : Dev nD) (t : Fin cfg0.N) :
    (dat0 (F := Ideal) V c).flushed 10 t = ((cfg0.win 10).blk t).view.read (Elt Ideal) (G0 V c) := by
  show (cfg0.win 10).cut (grid0.coords t) ((dat0 (F := Ideal) V c).after 10 t) = _
  rw [after0_10, out0_10_eq]
  funext (j : S5000x64.Idx)
  obtain ⟨p, q, rfl⟩ : ∃ p q, j = ix2 p q := ⟨j 0, j 1, eq_ix2 j⟩
  show k0_pay1 (F := Ideal) _ _ _ (ix2 p q) = G0 V c (((cfg0.win 10).blk t).view.emb (ix2 p q))
  rw [out0_apply, emb0_10]

theorem arr0_10 (c : Dev nD) : (dat0 (F := Ideal) V c).arrAt 10 cfg0.N = G0 V c :=
  arrAt_eq_of_emb _ 10 _ flush0_10 (flushed0_10_eq V c) fun i => by
    obtain ⟨t, p, q, rfl⟩ := row_split i
    exact ⟨t, ix2 p q, emb0_10 t p q⟩

theorem flushed0_11_eq (c : Dev nD) (t : Fin cfg0.N) :
    (dat0 (F := Ideal) V c).flushed 11 t = ((cfg0.win 11).blk t).view.read (Elt Ideal) (G0 V c) := by
  show (cfg0.win 11).cut (grid0.coords t) ((dat0 (F := Ideal) V c).after 11 t) = _
  rw [after0_11, out0_11_eq]
  funext (j : S5000x64.Idx)
  obtain ⟨p, q, rfl⟩ : ∃ p q, j = ix2 p q := ⟨j 0, j 1, eq_ix2 j⟩
  show k0_pay1 (F := Ideal) _ _ _ (ix2 p q) = G0 V c (((cfg0.win 11).blk t).view.emb (ix2 p q))
  rw [out0_apply, emb0_11]

theorem arr0_11 (c : Dev nD) : (dat0 (F := Ideal) V c).arrAt 11 cfg0.N = G0 V c :=
  arrAt_eq_of_emb _ 11 _ flush0_11 (flushed0_11_eq V c) fun i => by
    obtain ⟨t, p, q, rfl⟩ := row_split i
    exact ⟨t, ix2 p q, emb0_11 t p q⟩

end Cert.KernelIdeal.HandValue
-- ==== Proof.KI_Val1.lean ====
import proofs.«405115_j6640019439791_2_alg».proof.Proof.KI_Val0
import proofs.«405115_j6640019439791_2_alg».proof.Proof.KI_R1
import proofs.«405115_j6640019439791_2_alg».proof.Proof.Gen.KernelIdeal.Points
import proofs.«405115_j6640019439791_2_alg».proof.Proof.Gen.KernelIdeal.Skeleton
import proofs.«405115_j6640019439791_2_alg».proof.Proof.Spec

noncomputable section

namespace Cert.KernelIdeal.HandValue

open Idealize.ShloMosaic Idealize.ShloMosaic.ValueIdx Cert.KernelIdeal Cert.KernelIdeal.Gen

-- The two regions' hidden blocks differ by a cast to the same shape.
theorem pay3_eq : @k1_pay3 Ideal _ = k0_pay3 := by
  funext h agg W1 b1 rv ga rm be
  unfold k1_pay3 k0_pay3
  simp only [shapeCast_self]

theorem pay1_apply (h agg : Vec Ideal S5000x64 .f32) (W1 W2 : Vec Ideal S64x64 .f32) (b1 ga be rm rv b2 : Vec Ideal S1x64 .f32)
    (p : Fin 5000) (q : Fin 64) :
    k1_pay1 (F := Ideal) (k1_pay3 h agg W1 b1 rv ga rm be) (k1_pay4 W2) b2 (ix2 p q)
      = Cert.Spec.mlp epsK (layerOf W1 b1 ga be rm rv W2 b2) (fun j => h (ix2 p j) + agg (ix2 p j)) q := by
  rw [pay3_eq]
  exact pay0_apply h agg W1 W2 b1 ga be rm rv b2 p q

open Cert.KernelIdeal.Hand
open Idealize.ShloMosaic.TcCoe
open Idealize.ShloMosaic.Pipeline (Dat Cfg Window)

variable (V : (c : Dev nD) → (b : Ref sig .tc) → Buf (Elt Ideal) ((c : Thread nD τ).loc b))

abbrev nodes1 (c : Dev nD) : Vec Ideal S100000x64 .f32 := V c (Pipeline.arrRef spec1 0)
abbrev sums1 (c : Dev nD) : Vec Ideal S100000x64 .f32 := V c (Pipeline.arrRef spec1 1)

abbrev layer1 (c : Dev nD) : Cert.Spec.Layer :=
  layerOf (V c (Pipeline.arrRef spec1 2)) (V c (Pipeline.arrRef spec1 3)) (V c (Pipeline.arrRef spec1 4))
    (V c (Pipeline.arrRef spec1 5)) (V c (Pipeline.arrRef spec1 6)) (V c (Pipeline.arrRef spec1 7))
    (V c (Pipeline.arrRef spec1 8)) (V c (Pipeline.arrRef spec1 9))

def G1 (c : Dev nD) : S100000x64.Idx → EReal := fun i =>
  Cert.Spec.mlp epsK (layer1 V c) (fun j => nodes1 V c (ix2 (i 0) j) + sums1 V c (ix2 (i 0) j)) (i 1)

-- The index maps over the twenty points: the row blocks follow the point, the parameter blocks stay at zero.
theorem idx1 : ∀ t : Fin cfg1.N,
    (win1_0.index t 0 = t.val ∧ win1_0.index t 1 = 0 ∧ win1_1.index t 0 = t.val ∧ win1_1.index t 1 = 0
      ∧ win1_10.index t 0 = t.val ∧ win1_10.index t 1 = 0 ∧ win1_11.index t 0 = t.val ∧ win1_11.index t 1 = 0)
    ∧ (∀ a, win1_2.index t a = 0) ∧ (∀ a, win1_3.index t a = 0) ∧ (∀ a, win1_4.index t a = 0) ∧ (∀ a, win1_5.index t a = 0)
      ∧ (∀ a, win1_6.index t a = 0) ∧ (∀ a, win1_7.index t a = 0) ∧ (∀ a, win1_8.index t a = 0) ∧ (∀ a, win1_9.index t a = 0) :=
  (by decide +kernel : ∀ t : Fin grid1.N, _)

theorem pblk1_2 (c : Dev nD) (t : Fin cfg1.N) : iblk1 V c 2 t = V c (Pipeline.arrRef spec1 2) :=
  funext fun (y : S64x64.Idx) => congrArg (V c (Pipeline.arrRef spec1 2))
    (funext fun a => Fin.ext (win1_2.rect_emb_val_of_index_zero t a ((idx1 t).2.1 a) y))

theorem pblk1_3 (c : Dev nD) (t : Fin cfg1.N) : iblk1 V c 3 t = V c (Pipeline.arrRef spec1 3) :=
  funext fun (y : S1x64.Idx) => congrArg (V c (Pipeline.arrRef spec1 3))
    (funext fun a => Fin.ext (win1_3.rect_emb_val_of_index_zero t a ((idx1 t).2.2.1 a) y))

theorem pblk1_4 (c : Dev nD) (t : Fin cfg1.N) : iblk1 V c 4 t = V c (Pipeline.arrRef spec1 4) :=
  funext fun (y : S1x64.Idx) => congrArg (V c (Pipeline.arrRef spec1 4))
    (funext fun a => Fin.ext (win1_4.rect_emb_val_of_index_zero t a ((idx1 t).2.2.2.1 a) y))

theorem pblk1_5 (c : Dev nD) (t : Fin cfg1.N) : iblk1 V c 5 t = V c (Pipeline.arrRef spec1 5) :=
  funext fun (y : S1x64.Idx) => congrArg (V c (Pipeline.arrRef spec1 5))
    (funext fun a => Fin.ext (win1_5.rect_emb_val_of_index_zero t a ((idx1 t).2.2.2.2.1 a) y))

theorem pblk1_6 (c : Dev nD) (t : Fin cfg1.N) : iblk1 V c 6 t = V c (Pipeline.arrRef spec1 6) :=
  funext fun (y : S1x64.Idx) => congrArg (V c (Pipeline.arrRef spec1 6))
    (funext fun a => Fin.ext (win1_6.rect_emb_val_of_index_zero t a ((idx1 t).2.2.2.2.2.1 a) y))

theorem pblk1_7 (c : Dev nD) (t : Fin cfg1.N) : iblk1 V c 7 t = V c (Pipeline.arrRef spec1 7) :=
  funext fun (y : S1x64.Idx) => congrArg (V c (Pipeline.arrRef spec1 7))
    (funext fun a => Fin.ext (win1_7.rect_emb_val_of_index_zero t a ((idx1 t).2.2.2.2.2.2.1 a) y))

theorem pblk1_8 (c : Dev nD) (t : Fin cfg1.N) : iblk1 V c 8 t = V c (Pipeline.arrRef spec1 8) :=
  funext fun (y : S64x64.Idx) => congrArg (V c (Pipeline.arrRef spec1 8))
    (funext fun a => Fin.ext (win1_8.rect_emb_val_of_index_zero t a ((idx1 t).2.2.2.2.2.2.2.1 a) y))

theorem pblk1_9 (c : Dev nD) (t : Fin cfg1.N) : iblk1 V c 9 t = V c (Pipeline.arrRef spec1 9) :=
  funext fun (y : S1x64.Idx) => congrArg (V c (Pipeline.arrRef spec1 9))
    (funext fun a => Fin.ext (win1_9.rect_emb_val_of_index_zero t a ((idx1 t).2.2.2.2.2.2.2.2 a) y))

theorem rblk1_0 (c : Dev nD) (t : Fin cfg1.N) (p : Fin 5000) (j : Fin 64) :
    iblk1 V c 0 t (ix2 p j) = nodes1 V c (ix2 (rowAt t p) j) :=
  congrArg (nodes1 V c) (Shape.idx_ext₂ ((win1_0.rect_emb_val t _ 0).trans (by rw [(idx1 t).1.1]; rfl)) (win1_0.rect_emb_val_of_index_zero t 1 (idx1 t).1.2.1 _))

theorem rblk1_1 (c : Dev nD) (t : Fin cfg1.N) (p : Fin 5000) (j : Fin 64) :
    iblk1 V c 1 t (ix2 p j) = sums1 V c (ix2 (rowAt t p) j) :=
  congrArg (sums1 V c) (Shape.idx_ext₂ ((win1_1.rect_emb_val t _ 0).trans (by rw [(idx1 t).1.2.2.1]; rfl)) (win1_1.rect_emb_val_of_index_zero t 1 (idx1 t).1.2.2.2.1 _))

theorem emb1_10 (t : Fin cfg1.N) (p : Fin 5000) (q : Fin 64) :
    ((cfg1.win 10).blk t).view.emb (ix2 p q) = ix2 (rowAt t p) q :=
  Shape.idx_ext₂ ((win1_10.rect_emb_val t _ 0).trans (by rw [(idx1 t).1.2.2.2.2.1]; rfl)) (win1_10.rect_emb_val_of_index_zero t 1 (idx1 t).1.2.2.2.2.2.1 _)

theorem emb1_11 (t : Fin cfg1.N) (p : Fin 5000) (q : Fin 64) :
    ((cfg1.win 11).blk t).view.emb (ix2 p q) = ix2 (rowAt t p) q :=
  Shape.idx_ext₂ ((win1_11.rect_emb_val t _ 0).trans (by rw [(idx1 t).1.2.2.2.2.2.2.1]; rfl)) (win1_11.rect_emb_val_of_index_zero t 1 (idx1 t).1.2.2.2.2.2.2.2 _)

theorem out1_apply (c : Dev nD) (t : Fin cfg1.N) (p : Fin 5000) (q : Fin 64) :
    k1_pay1 (F := Ideal) (k1_pay3 (iblk1 V c 0 t) (iblk1 V c 1 t) (iblk1 V c 2 t) (iblk1 V c 3 t) (iblk1 V c 7 t) (iblk1 V c 4 t) (iblk1 V c 6 t) (iblk1 V c 5 t))
      (k1_pay4 (iblk1 V c 8 t)) (iblk1 V c 9 t) (ix2 p q) = G1 V c (ix2 (rowAt t p) q) := by
  rw [pblk1_2, pblk1_3, pblk1_4, pblk1_5, pblk1_6, pblk1_7, pblk1_8, pblk1_9, pay1_apply]
  unfold G1
  simp only [rblk1_0, rblk1_1]

theorem flushed1_10_eq (c : Dev nD) (t : Fin cfg1.N) :
    (dat1 (F := Ideal) V c).flushed 10 t = ((cfg1.win 10).blk t).view.read (Elt Ideal) (G1 V c) := by
  show (cfg1.win 10).cut (grid1.coords t) ((dat1 (F := Ideal) V c).after 10 t) = _
  rw [after1_10, out1_10_eq]
  funext (j : S5000x64.Idx)
  obtain ⟨p, q, rfl⟩ : ∃ p q, j = ix2 p q := ⟨j 0, j 1, eq_ix2 j⟩
  show k1_pay1 (F := Ideal) _ _ _ (ix2 p q) = G1 V c (((cfg1.win 10).blk t).view.emb (ix2 p q))
  rw [out1_apply, emb1_10]

theorem arr1_10 (c : Dev nD) : (dat1 (F := Ideal) V c).arrAt 10 cfg1.N = G1 V c :=
  arrAt_eq_of_emb _ 10 _ flush1_10 (flushed1_10_eq V c) fun i => by
    obtain ⟨t, p, q, rfl⟩ := row_split i
    exact ⟨t, ix2 p q, emb1_10 t p q⟩

theorem flushed1_11_eq (c : Dev nD) (t : Fin cfg1.N) :
    (dat1 (F := Ideal) V c).flushed 11 t = ((cfg1.win 11).blk t).view.read (Elt Ideal) (G1 V c) := by
  show (cfg1.win 11).cut (grid1.coords t) ((dat1 (F := Ideal) V c).after 11 t) = _
  rw [after1_11, out1_11_eq]
  funext (j : S5000x64.Idx)
  obtain ⟨p, q, rfl⟩ : ∃ p q, j = ix2 p q := ⟨j 0, j 1, eq_ix2 j⟩
  show k1_pay1 (F := Ideal) _ _ _ (ix2 p q) = G1 V c (((cfg1.win 11).blk t).view.emb (ix2 p q))
  rw [out1_apply, emb1_11]

theorem arr1_11 (c : Dev nD) : (dat1 (F := Ideal) V c).arrAt 11 cfg1.N = G1 V c :=
  arrAt_eq_of_emb _ 11 _ flush1_11 (flushed1_11_eq V c) fun i => by
    obtain ⟨t, p, q, rfl⟩ := row_split i
    exact ⟨t, ix2 p q, emb1_11 t p q⟩

end Cert.KernelIdeal.HandValue
-- ==== Proof.KI_Val2Pay.lean ====
import proofs.«405115_j6640019439791_2_alg».proof.Proof.Gen.KernelIdeal.Skeleton
import proofs.«405115_j6640019439791_2_alg».proof.Proof.Spec
import proofs.«405115_j6640019439791_2_alg».proof.Proof.KI_Val0
import Idealize.ShloMosaic.Lib.ValueLayout
import Idealize.ShloMosaic.PureOps.Ideal.Laws

noncomputable section

open scoped BigOperators

namespace Cert.KernelIdeal.HandValue

open Idealize.ShloMosaic Idealize.ShloMosaic.ValueIdx Cert.KernelIdeal Cert.KernelIdeal.Gen

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) fun ax => by
    match ax with
    | ⟨0, _⟩ => show p.val = if a = 1 then 0 else p.val; have := p.isLt; split <;> omega
    | ⟨1, _⟩ => rfl

theorem scalar_zero : (Scalar.ofBits (F := Ideal) .f32 0x00000000#32 : EReal) = 0 := Ideal.ofBits_zero_f32

-- Re-indexing the one contracted axis by its coordinate turns the product into a sum over that coordinate.
theorem matmul_sum {sl sr so : Shape} {φ₁ φ₂ : FTy} (D : DotDims sl sr so) (n : ℕ) (hr : D.contr.rank = 1)
    (hs : D.contr.size ⟨0, by omega⟩ = n) (A : FVec Ideal sl φ₁) (B : FVec Ideal sr φ₂) (j : so.Idx)
    (L : Fin n → sl.Idx) (R : Fin n → sr.Idx) (hL : ∀ q, D.lhsIdx j q = L (contrEquiv1 D n hr hs q))
    (hR : ∀ q, D.rhsIdx j q = R (contrEquiv1 D n hr hs q)) :
    matmul D none A B (constant (F := Ideal) so .f32 0x00000000#32) j = ∑ k, A (L k) * B (R k) := by
  simp only [matmul]
  rw [Ideal.matmul_constant_zero_apply, ← Equiv.sum_comp (contrEquiv1 D n hr hs)]
  exact Finset.sum_congr rfl fun q _ => by rw [hL, hR]

theorem pool_apply {φ₁ φ₂ : FTy} (A : FVec Ideal S5000x128 φ₁) (B : FVec Ideal S5000x64 φ₂) (g : Fin 128) (d : Fin 64) :
    matmul dot_S5000x128_S5000x64_S128x64_0_0_1_1_n_n none A B (constant (F := Ideal) S128x64 .f32 0x00000000#32) (ix2 g d)
      = ∑ p : Fin 5000, A (ix2 p g) * B (ix2 p d) :=
  matmul_sum _ 5000 rfl rfl A B _ (ix2 · g) (ix2 · d)
    (fun q => Shape.idx_ext₂ (DotDims.lhsIdx_val_of_single _ rfl _ q) rfl)
    (fun q => Shape.idx_ext₂ (DotDims.rhsIdx_val_of_single _ rfl _ q) rfl)

-- A word equals the word of a number below 128 exactly when its signed value is that number.
theorem membWord (x : BitVec 32) (g : Fin 128) :
    (FloatOps.sitofp (F := Ideal) .f32 ((IntOp.cmpi .eq x (BitVec.ofNat 32 g.val)).setWidth 32) : EReal)
      = if x.toInt = (g.val : Int) then 1 else 0 := by
  have hg : (BitVec.ofNat 32 g.val).toInt = (g.val : Int) := by
    rw [BitVec.toInt_ofNat', Int.bmod_def]; have := g.isLt; omega
  by_cases h : x = BitVec.ofNat 32 g.val
  · rw [if_pos (h ▸ hg)]; simp [IntOp.cmpi, FloatOps.sitofp, h]
  · rw [if_neg fun h' => h (BitVec.eq_of_toInt_eq (h'.trans hg.symm))]
    simp [IntOp.cmpi, FloatOps.sitofp, beq_eq_false_iff_ne.mpr h, h]

theorem membBlock_apply (bcol : Vec Ideal S5000x1 .i32) (p : Fin 5000) (g : Fin 128) :
    (sitofp (F := Ideal) .f32 (extui 32 (cmpi .eq (broadcastTo S5000x128 bcol broadcasts_S5000x1_S5000x128)
      (iota .tc S5000x128 32 [1] iota_S5000x128_d1_w32)) natLt_1_32) : FVec Ideal S5000x128 .f32) (ix2 p g)
      = if (bcol (ix2 p (0 : Fin 1))).toInt = (g.val : Int) then 1 else 0 := by
  rw [sitofp_apply, extui_apply]
  show FloatOps.sitofp (F := Ideal) .f32 ((IntOp.cmpi .eq (broadcastTo S5000x128 bcol broadcasts_S5000x1_S5000x128 (ix2 p g))
      (iota .tc S5000x128 32 [1] iota_S5000x128_d1_w32 (ix2 p g))).setWidth 32) = _
  rw [broadcastTo_a1_ab_apply, iota_single_apply]
  exact membWord _ g

-- Both sides unfold to the same sums, term by term.
theorem mlpRow_apply (h agg : Vec Ideal S5000x64 .f32) (W1 : Vec Ideal S64x64 .f32) (b1 rv ga rm be : Vec Ideal S1x64 .f32)
    (W2 : Vec Ideal S64x64 .f32) (b2 : Vec Ideal S1x64 .f32) (p : Fin 5000) (d : Fin 64) :
    (addf (matmul dot_S5000x64_S64x64_S5000x64_1_0_0_1_n_n none
        (truncf (F := Ideal) .bf16 (addf (k2_pay4 (F := Ideal) h agg W1 b1 rv ga rm) (k2_pay5 (F := Ideal) be)) bitsLt_bf16_f32)
        (truncf (F := Ideal) .bf16 W2 bitsLt_bf16_f32) (constant (F := Ideal) S5000x64 .f32 0x00000000#32))
      (broadcastTo S5000x64 b2 broadcasts_S1x64_S5000x64) : FVec Ideal S5000x64 .f32) (ix2 p d)
      = Cert.Spec.mlp epsK (layerOf W1 b1 ga be rm rv W2 b2) (fun j => h (ix2 p j) + agg (ix2 p j)) d := by
  unfold k2_pay4 k2_pay5 Cert.Spec.mlp Cert.Spec.normed Cert.Spec.hidden layerOf
  simp only [shapeCast_self, addf_apply, rowProduct_apply, broadcastTo_1b_ab_apply, truncf_apply, mulf_apply, subf_apply,
    maximumf_apply, broadcast_apply, scalar_zero]
  rfl

-- Both pooling products contract the block's 5000 rows against the 0/1 membership matrix.
theorem layerStep_apply (h agg : Vec Ideal S5000x64 .f32) (bcol : Vec Ideal S5000x1 .i32) (W1 : Vec Ideal S64x64 .f32)
    (b1 ga be rm rv : Vec Ideal S1x64 .f32) (W2 : Vec Ideal S64x64 .f32) (b2 : Vec Ideal S1x64 .f32) (acc : Vec Ideal S128x64 .f32)
    (g : Fin 128) (d : Fin 64) (w r : Fin 5000 → EReal)
    (hw : ∀ p, (if (bcol (ix2 p (0 : Fin 1))).toInt = (g.val : Int) then 1 else 0) = w p)
    (hr : ∀ p, Cert.Spec.mlp epsK (layerOf W1 b1 ga be rm rv W2 b2) (fun j => h (ix2 p j) + agg (ix2 p j)) d = r p) :
    k2_pay1 (F := Ideal) (k2_pay4 (F := Ideal) h agg W1 b1 rv ga rm) (k2_pay5 (F := Ideal) be) W2 b2 bcol acc (ix2 g d)
      = acc (ix2 g d) + ((∑ p, w p * r p) + (∑ p, w p * (r p - r p))) := by
  unfold k2_pay1
  simp only [shapeCast_self]
  rw [addf_apply, addf_apply, pool_apply, pool_apply]
  simp only [membBlock_apply bcol _ g, truncf_apply, subf_apply, mlpRow_apply, hw, hr]

theorem zeroFill_apply (g : Fin 128) (d : Fin 64) : (k2_pay3 (F := Ideal)) (ix2 g d) = 0 := by
  unfold k2_pay3
  simp only [shapeCast_self]
  exact scalar_zero

end Cert.KernelIdeal.HandValue

end
-- ==== Proof.KI_Val2Cls.lean ====
import proofs.«405115_j6640019439791_2_alg».proof.Proof.Gen.KernelIdeal.Skeleton
import proofs.«405115_j6640019439791_2_alg».proof.Proof.Spec
import proofs.«405115_j6640019439791_2_alg».proof.Proof.KI_Val2Pay

noncomputable section

open scoped BigOperators

namespace Cert.KernelIdeal.HandValue

open Idealize.ShloMosaic Idealize.ShloMosaic.ValueIdx Cert.KernelIdeal Cert.KernelIdeal.Gen

theorem clsHid_apply {φ₁ φ₂ : FTy} (A : FVec Ideal S128x64 φ₁) (B : FVec Ideal S64x64 φ₂) (g : Fin 128) (k : Fin 64) :
    matmul dot_S128x64_S64x64_S128x64_1_0_0_1_n_n none A B (constant (F := Ideal) S128x64 .f32 0x00000000#32) (ix2 g k)
      = ∑ i : Fin 64, A (ix2 g i) * B (ix2 i k) :=
  matmul_sum _ 64 rfl rfl A B _ (ix2 g ·) (ix2 · k)
    (fun q => Shape.idx_ext₂ rfl (DotDims.lhsIdx_val_of_single _ rfl _ q))
    (fun q => Shape.idx_ext₂ (DotDims.rhsIdx_val_of_single _ rfl _ q) rfl)

theorem clsOut_apply {φ₁ φ₂ : FTy} (A : FVec Ideal S128x64 φ₁) (B : FVec Ideal S64x10 φ₂) (g : Fin 128) (j : Fin 10) :
    matmul dot_S128x64_S64x10_S128x10_1_0_0_1_n_n none A B (constant (F := Ideal) S128x10 .f32 0x00000000#32) (ix2 g j)
      = ∑ k : Fin 64, A (ix2 g k) * B (ix2 k j) :=
  matmul_sum _ 64 rfl rfl A B _ (ix2 g ·) (ix2 · j)
    (fun q => Shape.idx_ext₂ rfl (DotDims.lhsIdx_val_of_single _ rfl _ q))
    (fun q => Shape.idx_ext₂ (DotDims.rhsIdx_val_of_single _ rfl _ q) rfl)

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    have := u.isLt; omega)

theorem negInfWord : (FloatOps.ofBits (F := Ideal) .f32 0xFF800000#32 : EReal) = ⊥ := by
  show Ideal.ofBits .f32 0xFF800000#32 = ⊥
  simp [Ideal.ofBits, Ideal.ieee]

-- The fold of max from the least element over a finite set is its supremum.
theorem rowMax_apply (l : FVec Ideal S128x10 .f32) (g : Fin 128) :
    multiReduction (F := Ideal) .maximumf [1] S128 l 0xFF800000#32 reduces_S128x10_S128 (.inl rfl) rfl (ix1 g)
      = Finset.univ.sup' Finset.univ_nonempty fun k : Fin 10 => l (ix2 g k) := by
  refine (Ideal.multiReduction_maximumf_single l _ reduces_S128x10_S128 _ _ (ix1 g)).trans ?_
  rw [negInfWord, Finset.sup'_eq_sup]
  exact congrArg (Finset.univ.fold max ⊥) (funext fun k => congrArg l (Shape.idx_ext₂ rfl rfl))

theorem rowSum_apply (x : FVec Ideal S128x10 .f32) (g : Fin 128) :
    multiReduction (F := Ideal) .add [1] S128 x 0x00000000#32 reduces_S128x10_S128 (.inl rfl) rfl (ix1 g)
      = ∑ k : Fin 10, x (ix2 g k) :=
  (Ideal.multiReduction_add_single x _ reduces_S128x10_S128 _ _ (ix1 g)).trans
    (Finset.sum_congr rfl fun k _ => congrArg x (Shape.idx_ext₂ rfl rfl))

theorem exp_apply {s : Shape} {φ : FTy} (x : FVec Ideal s φ) (i : s.Idx) : exp x i = Ideal.exp (x i) := rfl

theorem log_apply {s : Shape} {φ : FTy} (x : FVec Ideal s φ) (i : s.Idx) : log x i = Ideal.log (x i) := rfl

-- Every operation of the classifier and of the log-softmax reads entry by entry.
theorem classify_apply (acc : Vec Ideal S128x64 .f32) (Wc1 : Vec Ideal S64x64 .f32) (bc1 : Vec Ideal S1x64 .f32) (Wc2 : Vec Ideal S64x10 .f32)
    (bc2 : Vec Ideal S1x10 .f32) (g : Fin 128) (j : Fin 10) :
    k2_pay2 (F := Ideal) acc Wc1 bc1 Wc2 bc2 (ix2 g j)
      = Cert.Spec.logSoftmax (Cert.Spec.logits (fun i k => Wc1 (ix2 i k)) (fun k => bc1 (ix2 (0 : Fin 1) k)) (fun k j => Wc2 (ix2 k j))
          (fun j => bc2 (ix2 (0 : Fin 1) j)) (fun i => acc (ix2 g i))) j := by
  unfold k2_pay2 Cert.Spec.logSoftmax
  simp only [shapeCast_self, subf_apply, addf_apply, log_apply, exp_apply, broadcastTo_a1_ab_apply, broadcastTo_1b_ab_apply,
    shapeCast_a_a1_apply, rowMax_apply _ g, rowSum_apply _ g, clsOut_apply, clsHid_apply, truncf_apply, maximumf_apply, broadcast_apply,
    scalar_zero]
  rfl

end Cert.KernelIdeal.HandValue

end
-- ==== Proof.SpecFin.lean ====
import proofs.«405115_j6640019439791_2_alg».proof.Proof.Spec
import Mathlib.Data.EReal.Operations

noncomputable section

namespace Cert.Spec

open Idealize.ShloMosaic

def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, rfl⟩

theorem IsReal.sub {x y : EReal} (hx : IsReal x) (hy : IsReal y) : IsReal (x - y) := by
  obtain ⟨a, rfl⟩ := hx
  obtain ⟨b, rfl⟩ := hy
  exact ⟨a - b, rfl⟩

theorem IsReal.mul {x y : EReal} (hx : IsReal x) (hy : IsReal y) : IsReal (x * y) := by
  obtain ⟨a, rfl⟩ := hx
  obtain ⟨b, rfl⟩ := hy
  exact ⟨a * b, rfl⟩

theorem IsReal.max_zero {x : EReal} (hx : IsReal x) : IsReal (max x 0) := by
  rcases max_choice x 0 with h | h <;> rw [h]
  exacts [hx, ⟨0, rfl⟩]

theorem IsReal.sum {ι : Type*} (s : Finset ι) {f : ι → EReal} (h : ∀ i ∈ s, IsReal (f i)) :
    IsReal (∑ i ∈ s, f i) :=
  Finset.sum_induction f IsReal (fun _ _ => IsReal.add) ⟨0, rfl⟩ h

-- False at both infinities, where the difference is `⊥`.
theorem sub_self_of_finite {x : EReal} (hx : IsReal x) : x - x = 0 := by
  obtain ⟨a, rfl⟩ := hx
  rw [← EReal.coe_sub, _root_.sub_self, EReal.coe_zero]

-- A real `v ≥ 0` plus a real `eps > 0` is a positive real, away from the pole of the inverse square root.
theorem isReal_rsqrt_add {v eps : EReal} (hv : IsReal v) (h0 : 0 ≤ v) (he : IsReal eps) (hpos : 0 < eps) :
    IsReal (Ideal.rsqrt (v + eps)) := by
  obtain ⟨r, rfl⟩ := hv
  obtain ⟨e, rfl⟩ := he
  have hp : 0 < r + e := add_pos_of_nonneg_of_pos (EReal.coe_nonneg.mp h0) (EReal.coe_pos.mp hpos)
  rw [← EReal.coe_add, Ideal.rsqrt_coe, if_neg (not_lt.mpr hp.le), if_neg hp.ne']
  exact ⟨_, rfl⟩

structure Layer.Finite (L : Layer) : Prop where
  W1 : ∀ j k, IsReal (L.W1 j k)
  b1 : ∀ k, IsReal (L.b1 k)
  gamma : ∀ k, IsReal (L.gamma k)
  beta : ∀ k, IsReal (L.beta k)
  rm : ∀ k, IsReal (L.rm k)
  rv : ∀ k, IsReal (L.rv k)
  rv_nonneg : ∀ k, 0 ≤ L.rv k
  W2 : ∀ k q, IsReal (L.W2 k q)
  b2 : ∀ q, IsReal (L.b2 q)

theorem mlp_finite {eps : EReal} (he : IsReal eps) (hpos : 0 < eps) {L : Layer} (hL : L.Finite)
    {z : Fin 64 → EReal} (hz : ∀ j, IsReal (z j)) (q : Fin 64) : IsReal (mlp eps L z q) := by
  have hid k : IsReal (hidden L z k) :=
    ((IsReal.sum _ fun j _ => (hz j).mul (hL.W1 j k)).add (hL.b1 k)).max_zero
  have nor k : IsReal (normed eps L z k) :=
    (((hL.gamma k).mul ((hid k).sub (hL.rm k))).mul (isReal_rsqrt_add (hL.rv k) (hL.rv_nonneg k) he hpos)).add
      (hL.beta k)
  exact (IsReal.sum _ fun k _ => (nor k).mul (hL.W2 k q)).add (hL.b2 q)

theorem agg_finite {E N : Nat} (src : Fin E → Fin N) (hit : Fin E → Fin N → Prop) [∀ e n, Decidable (hit e n)]
    {h : Arr N 64} (hh : ∀ n j, IsReal (h n j)) (n : Fin N) (q : Fin 64) : IsReal (agg src hit h n q) :=
  IsReal.sum _ fun e _ => hh (src e) q

theorem layer_finite {E N : Nat} (src : Fin E → Fin N) (hit : Fin E → Fin N → Prop) [∀ e n, Decidable (hit e n)]
    {eps : EReal} (he : IsReal eps) (hpos : 0 < eps) {L : Layer} (hL : L.Finite)
    {h : Arr N 64} (hh : ∀ n j, IsReal (h n j)) (n : Fin N) (q : Fin 64) :
    IsReal (layer src hit eps L h n q) :=
  mlp_finite he hpos hL (fun j => (hh n j).add (agg_finite src hit hh n j)) q

end Cert.Spec

end
-- ==== Proof.SpecPool.lean ====
import proofs.«405115_j6640019439791_2_alg».proof.Proof.SpecFin
import Mathlib.Logic.Equiv.Fin.Basic
import Mathlib.Algebra.BigOperators.Fin

noncomputable section

namespace Cert.Spec

open Idealize.ShloMosaic

-- A sequence that starts at zero and adds `f t` at step `t` ends, after all the steps, at the sum of `f`.
theorem sum_of_steps {M : Type*} [AddCommMonoid M] {T : ℕ} (acc : ℕ → M) (f : Fin T → M) (h0 : acc 0 = 0)
    (hs : ∀ t : Fin T, acc (t.val + 1) = acc t.val + f t) : acc T = ∑ t, f t := by
  induction T with
  | zero => rw [h0, Finset.univ_eq_empty, Finset.sum_empty]
  | succ T ih =>
    rw [Fin.sum_univ_castSucc, ← ih (fun t => f t.castSucc) fun t => hs t.castSucc]
    exact hs (Fin.last T)

-- Node `t * B + p` is met exactly once, as place `p` of block `t`.
theorem sum_blocks {B T N : Nat} (hN : N = T * B) (idx : Fin T → Fin B → Fin N)
    (hidx : ∀ t p, (idx t p : ℕ) = t * B + p) (f : Fin N → EReal) :
    ∑ t : Fin T, ∑ p : Fin B, f (idx t p) = ∑ n : Fin N, f n := by
  subst hN
  rw [← Equiv.sum_comp finProdFinEquiv f, Fintype.sum_prod_type]
  refine Finset.sum_congr rfl fun t _ => Finset.sum_congr rfl fun p _ => congrArg f (Fin.ext ?_)
  rw [hidx]
  simp only [finProdFinEquiv, Equiv.coe_fn_mk]
  ring

def oh {N G : Nat} (seg : Fin N → Fin G → Prop) [∀ n g, Decidable (seg n g)] (n : Fin N) (g : Fin G) : EReal :=
  if seg n g then 1 else 0

theorem oh_eq {N G : Nat} (seg : Fin N → Fin G → Prop) [∀ n g, Decidable (seg n g)] (n : Fin N) (g : Fin G) :
    oh seg n g = if seg n g then 1 else 0 := rfl

def row5000 (t : Fin 20) (p : Fin 5000) : Fin 100000 :=
  ⟨t.val * 5000 + p.val, by have := t.isLt; have := p.isLt; omega⟩

-- With a 0/1 weight a block's first sum picks the rows of weight one; its second sum, of real `v - v`, is zero.
theorem pool_of_steps_5000 {G : Nat} (seg : Fin 100000 → Fin G → Prop) [∀ n g, Decidable (seg n g)]
    {w : Fin 100000 → Fin G → EReal} (hw : ∀ n g, w n g = if seg n g then 1 else 0)
    {h : Arr 100000 64} (hh : ∀ n j, IsReal (h n j)) (g : Fin G) (d : Fin 64)
    (acc : ℕ → EReal) (h0 : acc 0 = 0)
    (hstep : ∀ t : Fin 20, acc (t.val + 1) = acc t.val +
      ((∑ p : Fin 5000, w (row5000 t p) g * h (row5000 t p) d)
        + (∑ p : Fin 5000, w (row5000 t p) g * (h (row5000 t p) d - h (row5000 t p) d)))) :
    acc 20 = pool seg h g d := by
  rw [sum_of_steps acc _ h0 hstep, pool, Finset.sum_filter,
    ← sum_blocks (by norm_num) row5000 (fun _ _ => rfl) fun n => if seg n g then h n d else 0]
  refine Finset.sum_congr rfl fun t _ => ?_
  rw [Finset.sum_eq_zero (f := fun p => w (row5000 t p) g * (h (row5000 t p) d - h (row5000 t p) d))
    fun p _ => by rw [sub_self_of_finite (hh _ _), mul_zero], add_zero]
  exact Finset.sum_congr rfl fun p _ => by rw [hw, ite_mul, one_mul, zero_mul]

end Cert.Spec

end
-- ==== Proof.KI_Val2Arr.lean ====
import proofs.«405115_j6640019439791_2_alg».proof.Proof.KI_R2
import proofs.«405115_j6640019439791_2_alg».proof.Proof.KI_Val2Pay
import proofs.«405115_j6640019439791_2_alg».proof.Proof.KI_Val2Cls
import proofs.«405115_j6640019439791_2_alg».proof.Proof.SpecPool
import proofs.«405115_j6640019439791_2_alg».proof.Proof.EdgeMaps

noncomputable section

open scoped BigOperators

namespace Cert.KernelIdeal.HandValue

open Idealize.ShloMosaic Idealize.ShloMosaic.ValueIdx Cert.KernelIdeal Cert.KernelIdeal.Gen
open Cert.KernelIdeal.Hand
open Idealize.ShloMosaic.TcCoe
open Idealize.ShloMosaic.Pipeline (Window)
open Cert.Spec

variable (V : (c : Dev nD) → (b : Ref sig .tc) → Buf (Elt Ideal) ((c : Thread nD τ).loc b))

abbrev nodes2 (c : Dev nD) : Vec Ideal S100000x64 .f32 := V c (Pipeline.arrRef spec2 0)
abbrev sums2 (c : Dev nD) : Vec Ideal S100000x64 .f32 := V c (Pipeline.arrRef spec2 1)
abbrev graphCol2 (c : Dev nD) : Vec Ideal S100000x1 .i32 := V c (Pipeline.arrRef spec2 2)

abbrev layer2 (c : Dev nD) : Layer :=
  layerOf (V c (Pipeline.arrRef spec2 3)) (V c (Pipeline.arrRef spec2 4)) (V c (Pipeline.arrRef spec2 5))
    (V c (Pipeline.arrRef spec2 6)) (V c (Pipeline.arrRef spec2 7)) (V c (Pipeline.arrRef spec2 8))
    (V c (Pipeline.arrRef spec2 9)) (V c (Pipeline.arrRef spec2 10))

def rows2 (c : Dev nD) : Arr 100000 64 := fun n q =>
  mlp epsK (layer2 V c) (fun j => nodes2 V c (ix2 n j) + sums2 V c (ix2 n j)) q

def graphWord2 (c : Dev nD) (n : Fin 100000) : BitVec 32 := graphCol2 V c (ix2 n (0 : Fin 1))

abbrev seg2 (c : Dev nD) : Fin 100000 → Fin 128 → Prop := Cert.EdgeMaps.segOf (graphWord2 V c)

abbrev wc1_2 (c : Dev nD) : Fin 64 → Fin 64 → EReal := fun i k => (V c (Pipeline.arrRef spec2 11) : Vec Ideal S64x64 .f32) (ix2 i k)
abbrev bc1_2 (c : Dev nD) : Fin 64 → EReal := fun k => (V c (Pipeline.arrRef spec2 12) : Vec Ideal S1x64 .f32) (ix2 (0 : Fin 1) k)
abbrev wc2_2 (c : Dev nD) : Fin 64 → Fin 10 → EReal := fun k j => (V c (Pipeline.arrRef spec2 13) : Vec Ideal S64x10 .f32) (ix2 k j)
abbrev bc2_2 (c : Dev nD) : Fin 10 → EReal := fun j => (V c (Pipeline.arrRef spec2 14) : Vec Ideal S1x10 .f32) (ix2 (0 : Fin 1) j)

def G2 (c : Dev nD) : S128x10.Idx → EReal := fun i =>
  logSoftmax (logits (wc1_2 V c) (bc1_2 V c) (wc2_2 V c) (bc2_2 V c) (pool (seg2 V c) (rows2 V c) (i 0))) (i 1)

theorem idx_par2 : ∀ (t : Fin cfg2.N) (w : Fin cfg2.W), 3 ≤ w.val → ∀ a, (cfg2.win w).index t a = 0 :=
  (by decide +kernel : ∀ t : Fin grid2.N, _)

theorem idx_row2 : ∀ (t : Fin cfg2.N) (w : Fin cfg2.W), w.val < 3 → ∀ a, (cfg2.win w).index t a = if a.val = 0 then t.val else 0 :=
  (by decide +kernel : ∀ t : Fin grid2.N, _)

theorem emb_par {G : Pipeline.Grid} {w : Window sig G} {t : Fin G.N} {y : (w.xblock (G.coords t)).Idx}
    {i : w.shape.Idx} (hz : ∀ a, w.index t a = 0) (h : ∀ a, (i a : ℕ) = y a) : (w.rect t).emb y = i :=
  funext fun a => Fin.ext ((w.rect_emb_val_of_index_zero t a (hz a) y).trans (h a).symm)

theorem pblk2_3 (c : Dev nD) (t : Fin cfg2.N) : blk2_3 (F := Ideal) V c t = V c (Pipeline.arrRef spec2 3) :=
  funext fun j => congrArg (V c (Pipeline.arrRef spec2 3)) (emb_par (idx_par2 t 3 (by decide)) fun _ => rfl)
theorem pblk2_4 (c : Dev nD) (t : Fin cfg2.N) : blk2_4 (F := Ideal) V c t = V c (Pipeline.arrRef spec2 4) :=
  funext fun j => congrArg (V c (Pipeline.arrRef spec2 4)) (emb_par (idx_par2 t 4 (by decide)) fun _ => rfl)
theorem pblk2_5 (c : Dev nD) (t : Fin cfg2.N) : blk2_5 (F := Ideal) V c t = V c (Pipeline.arrRef spec2 5) :=
  funext fun j => congrArg (V c (Pipeline.arrRef spec2 5)) (emb_par (idx_par2 t 5 (by decide)) fun _ => rfl)
theorem pblk2_6 (c : Dev nD) (t : Fin cfg2.N) : blk2_6 (F := Ideal) V c t = V c (Pipeline.arrRef spec2 6) :=
  funext fun j => congrArg (V c (Pipeline.arrRef spec2 6)) (emb_par (idx_par2 t 6 (by decide)) fun _ => rfl)
theorem pblk2_7 (c : Dev nD) (t : Fin cfg2.N) : blk2_7 (F := Ideal) V c t = V c (Pipeline.arrRef spec2 7) :=
  funext fun j => congrArg (V c (Pipeline.arrRef spec2 7)) (emb_par (idx_par2 t 7 (by decide)) fun _ => rfl)
theorem pblk2_8 (c : Dev nD) (t : Fin cfg2.N) : blk2_8 (F := Ideal) V c t = V c (Pipeline.arrRef spec2 8) :=
  funext fun j => congrArg (V c (Pipeline.arrRef spec2 8)) (emb_par (idx_par2 t 8 (by decide)) fun _ => rfl)
theorem pblk2_9 (c : Dev nD) (t : Fin cfg2.N) : blk2_9 (F := Ideal) V c t = V c (Pipeline.arrRef spec2 9) :=
  funext fun j => congrArg (V c (Pipeline.arrRef spec2 9)) (emb_par (idx_par2 t 9 (by decide)) fun _ => rfl)
theorem pblk2_10 (c : Dev nD) (t : Fin cfg2.N) : blk2_10 (F := Ideal) V c t = V c (Pipeline.arrRef spec2 10) :=
  funext fun j => congrArg (V c (Pipeline.arrRef spec2 10)) (emb_par (idx_par2 t 10 (by decide)) fun _ => rfl)
theorem pblk2_11 (c : Dev nD) (t : Fin cfg2.N) : blk2_11 (F := Ideal) V c t = V c (Pipeline.arrRef spec2 11) :=
  funext fun j => congrArg (V c (Pipeline.arrRef spec2 11)) (emb_par (idx_par2 t 11 (by decide)) fun _ => rfl)
theorem pblk2_12 (c : Dev nD) (t : Fin cfg2.N) : blk2_12 (F := Ideal) V c t = V c (Pipeline.arrRef spec2 12) :=
  funext fun j => congrArg (V c (Pipeline.arrRef spec2 12)) (emb_par (idx_par2 t 12 (by decide)) fun _ => rfl)
theorem pblk2_13 (c : Dev nD) (t : Fin cfg2.N) : blk2_13 (F := Ideal) V c t = V c (Pipeline.arrRef spec2 13) :=
  funext fun j => congrArg (V c (Pipeline.arrRef spec2 13)) (emb_par (idx_par2 t 13 (by decide)) fun _ => rfl)
theorem pblk2_14 (c : Dev nD) (t : Fin cfg2.N) : blk2_14 (F := Ideal) V c t = V c (Pipeline.arrRef spec2 14) :=
  funext fun j => congrArg (V c (Pipeline.arrRef spec2 14)) (emb_par (idx_par2 t 14 (by decide)) fun _ => rfl)

theorem row_emb2 (k : Fin cfg2.W) (hk : k.val < 3) (t : Fin cfg2.N) (y : ((cfg2.win k).xblock (cfg2.grid.coords t)).Idx)
    (a : Fin (cfg2.win k).shape.rank) :
    (((cfg2.win k).rect t).emb y a : ℕ) = (if a.val = 0 then t.val else 0) * (cfg2.win k).size a + y a :=
  idx_row2 t k hk a ▸ Window.rect_emb_val _ t y a

abbrev pt2 (t : Fin 20) : Fin cfg2.N := ⟨t.val, t.isLt.trans_eq N_2.symm⟩

theorem rblk2_0 (c : Dev nD) (t : Fin 20) (p : Fin 5000) (j : Fin 64) :
    blk2_0 (F := Ideal) V c (pt2 t) (ix2 p j) = nodes2 V c (ix2 (row5000 t p) j) :=
  congrArg (nodes2 V c) (Shape.idx_ext₂ (row_emb2 0 (by decide) _ _ 0) ((row_emb2 0 (by decide) _ _ 1).trans (Nat.zero_add _)))

theorem rblk2_1 (c : Dev nD) (t : Fin 20) (p : Fin 5000) (j : Fin 64) :
    blk2_1 (F := Ideal) V c (pt2 t) (ix2 p j) = sums2 V c (ix2 (row5000 t p) j) :=
  congrArg (sums2 V c) (Shape.idx_ext₂ (row_emb2 1 (by decide) _ _ 0) ((row_emb2 1 (by decide) _ _ 1).trans (Nat.zero_add _)))

theorem rblk2_2 (c : Dev nD) (t : Fin 20) (p : Fin 5000) :
    blk2_2 (F := Ideal) V c (pt2 t) (ix2 p (0 : Fin 1)) = graphWord2 V c (row5000 t p) :=
  congrArg (graphCol2 V c) (Shape.idx_ext₂ (row_emb2 2 (by decide) _ _ 0) ((row_emb2 2 (by decide) _ _ 1).trans (Nat.zero_add _)))

private theorem epsK_eq : epsK = (((10995116 : ℝ) * (2 : ℝ) ^ (-40 : ℤ) : ℝ) : EReal) := by
  unfold epsK
  simp [Ideal.ofBits, Ideal.ieee, -EReal.coe_mul]

private theorem epsK_pos : (0 : EReal) < epsK := by
  rw [epsK_eq]
  exact EReal.coe_pos.mpr (by positivity)

-- The twenty steps fold to the sum over all nodes; each step's second product vanishes because the rows are real.
theorem acc2_full_apply (c : Dev nD) (hL : (layer2 V c).Finite) (hx : ∀ n j, IsReal (nodes2 V c (ix2 n j)))
    (ha : ∀ n j, IsReal (sums2 V c (ix2 n j))) (g : Fin 128) (d : Fin 64) :
    acc2 (F := Ideal) V c 20 (ix2 g d) = pool (seg2 V c) (rows2 V c) g d :=
  pool_of_steps_5000 (seg2 V c) (oh_eq _) (h := rows2 V c)
    (fun n q => mlp_finite ⟨_, epsK_eq⟩ epsK_pos hL (fun j => (hx n j).add (ha n j)) q) g d
    (fun n => acc2 (F := Ideal) V c n (ix2 g d)) ((congrFun (acc2_zero V c) _).trans (zeroFill_apply g d)) fun t =>
    (congrFun (acc2_succ V c (pt2 t)) _).trans (layerStep_apply _ _ _ _ _ _ _ _ _ _ _ _ g d _ _
      (fun p => by rw [rblk2_2]; rfl) fun p => by
        unfold rows2
        rw [pblk2_3, pblk2_4, pblk2_5, pblk2_6, pblk2_7, pblk2_8, pblk2_9, pblk2_10]
        simp only [rblk2_0, rblk2_1])

theorem emb2_15 (t : Fin cfg2.N) (i : S128x10.Idx) : ((cfg2.win 15).blk t).view.emb i = i :=
  emb_par (idx_par2 t 15 (by decide)) fun _ => rfl

theorem out2_15_apply (c : Dev nD) (hL : (layer2 V c).Finite) (hx : ∀ n j, IsReal (nodes2 V c (ix2 n j)))
    (ha : ∀ n j, IsReal (sums2 V c (ix2 n j))) (i : S128x10.Idx) : out2_15 (F := Ideal) V c i = G2 V c i := by
  obtain ⟨g, j, rfl⟩ : ∃ g j, i = ix2 g j := ⟨i 0, i 1, eq_ix2 i⟩
  unfold out2_15
  rw [classify_apply, pblk2_11, pblk2_12, pblk2_13, pblk2_14]
  exact congrArg (fun r => logSoftmax (logits _ _ _ _ r) j) (funext fun k => acc2_full_apply V c hL hx ha g k)

-- The single write-back, at the last point, covers the whole result array.
theorem arr2_15 (c : Dev nD) (hL : (layer2 V c).Finite) (hx : ∀ n j, IsReal (nodes2 V c (ix2 n j)))
    (ha : ∀ n j, IsReal (sums2 V c (ix2 n j))) :
    (dat2 (F := Ideal) V c).arrAt 15 cfg2.N = G2 V c :=
  (dat2 (F := Ideal) V c).arrAt_eq_of_cover 15 (G2 V c)
    (fun t _ => funext fun i => by
      show (dat2 (F := Ideal) V c).after 15 t i = G2 V c (((cfg2.win 15).blk t).view.emb i)
      rw [after2_15, emb2_15, out2_15_apply V c hL hx ha])
    fun i => ⟨pt19, (flush2_15 pt19).mpr (by decide), emb2_15 pt19 i ▸ ((cfg2.win 15).blk pt19).view.emb_mem_set i⟩

end Cert.KernelIdeal.HandValue

end
-- ==== Proof.SpecNet.lean ====
import proofs.«405115_j6640019439791_2_alg».proof.Proof.SpecFin

noncomputable section

namespace Cert.Spec

open Idealize.ShloMosaic

theorem arr_ext {n d : Nat} {h h' : Arr n d} (hh : ∀ i j, h i j = h' i j) : h = h' :=
  funext fun i => funext fun j => hh i j

theorem agg_congr {E N : Nat} (src : Fin E → Fin N) (hit : Fin E → Fin N → Prop) [∀ e n, Decidable (hit e n)]
    {h h' : Arr N 64} (hh : ∀ n j, h n j = h' n j) : agg src hit h = agg src hit h' := by
  rw [arr_ext hh]

theorem net_of_pooled {E N G : Nat} (src : Fin E → Fin N) (hit : Fin E → Fin N → Prop) [∀ e n, Decidable (hit e n)]
    (seg : Fin N → Fin G → Prop) [∀ n g, Decidable (seg n g)] (eps : EReal) (L0 L1 L2 : Layer)
    (Wc1 : Fin 64 → Fin 64 → EReal) (bc1 : Fin 64 → EReal) (Wc2 : Fin 64 → Fin 10 → EReal) (bc2 : Fin 10 → EReal)
    (x : Arr N 64) (g : Fin G) {p : Fin 64 → EReal}
    (hp : ∀ d, p d = pool seg (layer src hit eps L2 (layer src hit eps L1 (layer src hit eps L0 x))) g d) :
    logSoftmax (logits Wc1 bc1 Wc2 bc2 p) = net src hit seg eps L0 L1 L2 Wc1 bc1 Wc2 bc2 x g := by
  rw [funext hp]
  rfl

theorem layer2_finite {E N : Nat} (src : Fin E → Fin N) (hit : Fin E → Fin N → Prop) [∀ e n, Decidable (hit e n)]
    {eps : EReal} (he : IsReal eps) (hpos : 0 < eps) {L0 L1 : Layer} (hL0 : L0.Finite) (hL1 : L1.Finite)
    {x : Arr N 64} (hx : ∀ n j, IsReal (x n j)) :
    ∀ n j, IsReal (layer src hit eps L1 (layer src hit eps L0 x) n j) :=
  layer_finite src hit he hpos hL1 (layer_finite src hit he hpos hL0 hx)

end Cert.Spec

end
-- ==== Proof.PreFacts.lean ====
import proofs.«405115_j6640019439791_2_alg».proof.Pre_finite_inputs
import proofs.«405115_j6640019439791_2_alg».proof.Proof.Gen.Pre_finite_inputs
import proofs.«405115_j6640019439791_2_alg».proof.Proof.SpecFin
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs Cert.Spec

instance : Subsingleton S_.Idx := ⟨fun a b => funext fun d => d.elim0⟩

theorem of_bit {p : Prop} [Decidable p] (h : BitVec.ofBool (decide p) = 1#1) : p := by
  by_contra hp
  simp [hp] at h

-- `max x (-x) < ⊤` excludes `x = ⊤` (first argument) and `x = ⊥` (second argument, as `-⊥ = ⊤`).
theorem real_of_bit {x : EReal} (h : Ideal.cmp .olt (max x (-x)) (Ideal.ofBits .f32 0x7F800000#32) = 1#1) :
    IsReal x := by
  have h := of_bit h
  rw [show Ideal.ofBits .f32 0x7F800000#32 = (⊤ : EReal) by simp [Ideal.ofBits, Ideal.ieee], max_lt_iff] at h
  exact ⟨x.toReal, (EReal.coe_toReal h.1.ne fun hb => h.2.ne (EReal.neg_eq_top_iff.2 hb)).symm⟩

theorem nonneg_of_bit {x : EReal} (h : Ideal.cmp .oge x (Ideal.ofBits .f32 0x00000000#32) = 1#1) : 0 ≤ x := by
  rw [← Ideal.ofBits_zero_f32]
  exact of_bit h

section inputs

variable (x : FVec Ideal S100000x64 .f32) (W1 : FVec Ideal S3x64x64 .f32) (b1 gamma beta rm rv : FVec Ideal S3x64 .f32)
  (W2 : FVec Ideal S3x64x64 .f32) (b2 : FVec Ideal S3x64 .f32) (Wc1 : FVec Ideal S64x64 .f32)
  (bc1 : FVec Ideal S64 .f32) (Wc2 : FVec Ideal S64x10 .f32) (bc2 : FVec Ideal S10 .f32)
  (edges : IVec S2x1600000 32) (batch : IVec S100000 32)

-- A conjunction of truth values is true only when both sides are, and one over all entries only when true at each.
theorem facts
    (h : Cert.Pre_finite_inputs.fn (F := Ideal) x W1 b1 gamma beta rm rv W2 b2 Wc1 bc1 Wc2 bc2 edges batch
      = fun _ => 1#1) :
    (∀ i, IsReal (x i)) ∧ (∀ i, IsReal (W1 i)) ∧ (∀ i, IsReal (b1 i)) ∧ (∀ i, IsReal (gamma i)) ∧
    (∀ i, IsReal (beta i)) ∧ (∀ i, IsReal (rm i)) ∧ (∀ i, IsReal (rv i)) ∧ (∀ i, IsReal (W2 i)) ∧
    (∀ i, IsReal (b2 i)) ∧ (∀ i, (0 : EReal) ≤ rv i) := by
  have h0 := congrFun h ValueIdx.ix0
  simp only [fn, fn_part1, fn_part2, fn_part3, andi, IntOp.andi_eq_one] at h0
  obtain ⟨⟨⟨⟨⟨⟨⟨⟨⟨⟨⟨⟨⟨h0, h1⟩, h2⟩, h3⟩, h4⟩, h5⟩, h6⟩, h7⟩, h8⟩, -⟩, -⟩, -⟩, -⟩, h9⟩ := h0
  exact ⟨fun i => real_of_bit (Host.reduce_andi_all _ _ _ _ _ h0 i),
    fun i => real_of_bit (Host.reduce_andi_all _ _ _ _ _ h1 i),
    fun i => real_of_bit (Host.reduce_andi_all _ _ _ _ _ h2 i),
    fun i => real_of_bit (Host.reduce_andi_all _ _ _ _ _ h3 i),
    fun i => real_of_bit (Host.reduce_andi_all _ _ _ _ _ h4 i),
    fun i => real_of_bit (Host.reduce_andi_all _ _ _ _ _ h5 i),
    fun i => real_of_bit (Host.reduce_andi_all _ _ _ _ _ h6 i),
    fun i => real_of_bit (Host.reduce_andi_all _ _ _ _ _ h7 i),
    fun i => real_of_bit (Host.reduce_andi_all _ _ _ _ _ h8 i),
    fun i => nonneg_of_bit (Host.reduce_andi_all _ _ _ _ _ h9 i)⟩

end inputs

end Cert.PreFacts

end
-- ==== Proof.ParamsFin.lean ====
import proofs.«405115_j6640019439791_2_alg».proof.Proof.Params
import proofs.«405115_j6640019439791_2_alg».proof.Proof.SpecNet
import proofs.«405115_j6640019439791_2_alg».proof.Proof.PreFacts

noncomputable section

namespace Cert.Params

open Idealize.ShloMosaic Idealize.ShloMosaic.ValueIdx Cert.Spec

theorem bnEps_eq : bnEps = (((10995116 : ℝ) * (2 : ℝ) ^ (-40 : ℤ) : ℝ) : EReal) := by
  unfold bnEps
  simp [Ideal.ofBits, Ideal.ieee, -EReal.coe_mul]

theorem bnEps_isReal : IsReal bnEps := ⟨_, bnEps_eq⟩

theorem bnEps_pos : (0 : EReal) < bnEps := by
  rw [bnEps_eq]
  exact EReal.coe_pos.mpr (by positivity)

section fromPre

variable (x : (⟨2, ![100000, 64]⟩ : Shape).Idx → EReal)
  (W1 : (⟨3, ![3, 64, 64]⟩ : Shape).Idx → EReal) (b1 ga be rm rv : (⟨2, ![3, 64]⟩ : Shape).Idx → EReal)
  (W2 : (⟨3, ![3, 64, 64]⟩ : Shape).Idx → EReal) (b2 : (⟨2, ![3, 64]⟩ : Shape).Idx → EReal)
  (Wc1 : (⟨2, ![64, 64]⟩ : Shape).Idx → EReal) (bc1 : (⟨1, ![64]⟩ : Shape).Idx → EReal)
  (Wc2 : (⟨2, ![64, 10]⟩ : Shape).Idx → EReal) (bc2 : (⟨1, ![10]⟩ : Shape).Idx → EReal)
  (edges : (⟨2, ![2, 1600000]⟩ : Shape).Idx → BitVec 32) (batch : (⟨1, ![100000]⟩ : Shape).Idx → BitVec 32)
  (h : Cert.Pre_finite_inputs.fn (F := Ideal) x W1 b1 ga be rm rv W2 b2 Wc1 bc1 Wc2 bc2 edges batch = fun _ => 1#1)

include h

theorem layerAt_finite_of_pre (k : Fin 3) : (layerAt k W1 b1 ga be rm rv W2 b2).Finite := by
  obtain ⟨-, hW1, hb1, hga, hbe, hrm, hrv, hW2, hb2, hrv0⟩ :=
    Cert.PreFacts.facts x W1 b1 ga be rm rv W2 b2 Wc1 bc1 Wc2 bc2 edges batch h
  exact ⟨fun _ _ => hW1 _, fun _ => hb1 _, fun _ => hga _, fun _ => hbe _, fun _ => hrm _, fun _ => hrv _,
    fun _ => hrv0 _, fun _ _ => hW2 _, fun _ => hb2 _⟩

theorem nodeArr_finite_of_pre : ∀ n j, IsReal (nodeArr x n j) :=
  fun _ _ => (Cert.PreFacts.facts x W1 b1 ga be rm rv W2 b2 Wc1 bc1 Wc2 bc2 edges batch h).1 _

end fromPre

end Cert.Params

end
-- ==== Proof.NetStage.lean ====
import proofs.«405115_j6640019439791_2_alg».proof.Proof.SpecNet
import proofs.«405115_j6640019439791_2_alg».proof.Proof.Params
import Idealize.ShloMosaic.Lib.ValueIdx

noncomputable section

namespace Cert.Spec

open Idealize.ShloMosaic Idealize.ShloMosaic.ValueIdx

theorem layer_ext {L L' : Layer} (hW1 : ∀ i k, L.W1 i k = L'.W1 i k) (hb1 : ∀ k, L.b1 k = L'.b1 k)
    (hga : ∀ k, L.gamma k = L'.gamma k) (hbe : ∀ k, L.beta k = L'.beta k) (hrm : ∀ k, L.rm k = L'.rm k)
    (hrv : ∀ k, L.rv k = L'.rv k) (hW2 : ∀ k q, L.W2 k q = L'.W2 k q) (hb2 : ∀ q, L.b2 q = L'.b2 q) : L = L' := by
  cases L
  cases L'
  simp only [Layer.mk.injEq]
  exact ⟨funext₂ hW1, funext hb1, funext hga, funext hbe, funext hrm, funext hrv, funext₂ hW2, funext hb2⟩

-- The layer is by definition the perceptron of each node's row plus its neighbour sum.
theorem stage_read {E N : Nat} (src : Fin E → Fin N) (hit : Fin E → Fin N → Prop) [∀ e n, Decidable (hit e n)]
    (eps : EReal) {L L' : Layer} (hL : L' = L) (x : Arr N 64)
    {nodes sums : (⟨2, ![N, 64]⟩ : Shape).Idx → EReal}
    (hnodes : ∀ n j, nodes (ix2 n j) = x n j) (hsums : ∀ n q, sums (ix2 n q) = agg src hit x n q)
    (n : Fin N) (q : Fin 64) :
    mlp eps L' (fun j => nodes (ix2 n j) + sums (ix2 n j)) q = layer src hit eps L x n q := by
  subst hL
  exact congrArg (mlp eps L' · q) (funext fun j => by rw [hnodes, hsums])

theorem stage_array {E N : Nat} (src : Fin E → Fin N) (hit : Fin E → Fin N → Prop) [∀ e n, Decidable (hit e n)]
    (eps : EReal) {L L' : Layer} (hL : L' = L) (x : Arr N 64)
    {nodes sums out : (⟨2, ![N, 64]⟩ : Shape).Idx → EReal}
    (hnodes : ∀ n j, nodes (ix2 n j) = x n j) (hsums : ∀ n q, sums (ix2 n q) = agg src hit x n q)
    (hout : out = fun i => mlp eps L' (fun j => nodes (ix2 (i 0) j) + sums (ix2 (i 0) j)) (i 1))
    (n : Fin N) (q : Fin 64) : out (ix2 n q) = layer src hit eps L x n q := by
  rw [hout]
  exact stage_read src hit eps hL x hnodes hsums n q

end Cert.Spec

end
-- ==== Proof.KI_Net.lean ====
import proofs.«405115_j6640019439791_2_alg».proof.Defs
import proofs.«405115_j6640019439791_2_alg».proof.Proof.KI_Chain
import proofs.«405115_j6640019439791_2_alg».proof.Proof.KI_Host
import proofs.«405115_j6640019439791_2_alg».proof.Proof.KI_Val0
import proofs.«405115_j6640019439791_2_alg».proof.Proof.KI_Val1
import proofs.«405115_j6640019439791_2_alg».proof.Proof.KI_Val2Arr
import proofs.«405115_j6640019439791_2_alg».proof.Proof.ParamsFin
import proofs.«405115_j6640019439791_2_alg».proof.Proof.NetStage

set_option maxRecDepth 16384

noncomputable section

namespace Cert.KernelIdeal.HandValue

open Idealize.ShloMosaic Idealize.ShloMosaic.TcCoe Idealize.ShloMosaic.StableHlo Idealize.ShloMosaic.ValueIdx
open Idealize.SL Idealize.SL.Sem
open Cert.KernelIdeal Cert.KernelIdeal.Gen Cert.KernelIdeal.Hand
open Cert.Spec Cert.Params Cert.EdgeMaps

variable (m : (ℓ : Loc nD τ sig) → Buf (Elt Ideal) ℓ) (c : Dev nD)

abbrev argX : S100000x64.Idx → EReal := m ((c : Thread nD τ).loc main_arg0)
abbrev argW1 : S3x64x64.Idx → EReal := m ((c : Thread nD τ).loc main_arg1)
abbrev argB1 : S3x64.Idx → EReal := m ((c : Thread nD τ).loc main_arg2)
abbrev argGa : S3x64.Idx → EReal := m ((c : Thread nD τ).loc main_arg3)
abbrev argBe : S3x64.Idx → EReal := m ((c : Thread nD τ).loc main_arg4)
abbrev argRm : S3x64.Idx → EReal := m ((c : Thread nD τ).loc main_arg5)
abbrev argRv : S3x64.Idx → EReal := m ((c : Thread nD τ).loc main_arg6)
abbrev argW2 : S3x64x64.Idx → EReal := m ((c : Thread nD τ).loc main_arg7)
abbrev argB2 : S3x64.Idx → EReal := m ((c : Thread nD τ).loc main_arg8)
abbrev argWc1 : S64x64.Idx → EReal := m ((c : Thread nD τ).loc main_arg9)
abbrev argBc1 : S64.Idx → EReal := m ((c : Thread nD τ).loc main_arg10)
abbrev argWc2 : S64x10.Idx → EReal := m ((c : Thread nD τ).loc main_arg11)
abbrev argBc2 : S10.Idx → EReal := m ((c : Thread nD τ).loc main_arg12)
abbrev argEdges : IVec S2x1600000 32 := m ((c : Thread nD τ).loc main_arg13)
abbrev argBatch : IVec S100000 32 := m ((c : Thread nD τ).loc main_arg14)

abbrev srcK : Fin 1600000 → Fin 100000 := srcOf (edgeWords (argEdges m c))
abbrev hitK : Fin 1600000 → Fin 100000 → Prop := hitOf (edgeWords (argEdges m c))
abbrev segK : Fin 100000 → Fin 128 → Prop := segOf (batchWords (argBatch m c))

abbrev layK (k : Fin 3) : Layer :=
  layerAt k (argW1 m c) (argB1 m c) (argGa m c) (argBe m c) (argRm m c) (argRv m c) (argW2 m c) (argB2 m c)

def H1 : Arr 100000 64 := layer (srcK m c) (hitK m c) bnEps (layK m c 0) (nodeArr (argX m c))
def H2 : Arr 100000 64 := layer (srcK m c) (hitK m c) bnEps (layK m c 1) (H1 m c)
def H3 : Arr 100000 64 := layer (srcK m c) (hitK m c) bnEps (layK m c 2) (H2 m c)

theorem v1_at_W1 (e : Fin 1600000) :
    (W1 m c (Proc.devRef .tc main_v1) : IVec S1600000 32) (ix1 e) = argEdges m c (ix2 (0 : Fin 2) e) :=
  host0_v1 (W0 m c) e

theorem v3_at_W1 (e : Fin 1600000) :
    (W1 m c (Proc.devRef .tc main_v3) : IVec S1600000 32) (ix1 e) = argEdges m c (ix2 (1 : Fin 2) e) :=
  host0_v3 (W0 m c) e

theorem v5_at_W1 (n : Fin 100000) (u : Fin 1) :
    (W1 m c (Proc.devRef .tc main_v5) : IVec S100000x1 32) (ix2 n u) = argBatch m c (ix1 n) :=
  host0_v5 (W0 m c) n u

theorem layerOf_eq_layerAt (k : Fin 3) (W1b : S64x64.Idx → EReal) (b1b gab beb rmb rvb : S1x64.Idx → EReal)
    (W2b : S64x64.Idx → EReal) (b2b : S1x64.Idx → EReal)
    (W1s : S3x64x64.Idx → EReal) (b1s gas bes rms rvs : S3x64.Idx → EReal)
    (W2s : S3x64x64.Idx → EReal) (b2s : S3x64.Idx → EReal)
    (hW1 : ∀ i j, W1b (ix2 i j) = W1s (ix3 k i j)) (hb1 : ∀ j, b1b (ix2 (0 : Fin 1) j) = b1s (ix2 k j))
    (hga : ∀ j, gab (ix2 (0 : Fin 1) j) = gas (ix2 k j)) (hbe : ∀ j, beb (ix2 (0 : Fin 1) j) = bes (ix2 k j))
    (hrm : ∀ j, rmb (ix2 (0 : Fin 1) j) = rms (ix2 k j)) (hrv : ∀ j, rvb (ix2 (0 : Fin 1) j) = rvs (ix2 k j))
    (hW2 : ∀ i j, W2b (ix2 i j) = W2s (ix3 k i j)) (hb2 : ∀ j, b2b (ix2 (0 : Fin 1) j) = b2s (ix2 k j)) :
    layerOf W1b b1b gab beb rmb rvb W2b b2b = layerAt k W1s b1s gas bes rms rvs W2s b2s :=
  layer_ext hW1 hb1 hga hbe hrm hrv hW2 hb2

theorem layer0_eq : layer0 (V1 m) c = layK m c 0 :=
  layerOf_eq_layerAt 0
    (W1 m c (Proc.devRef .tc main_v18)) (W1 m c (Proc.devRef .tc main_v33)) (W1 m c (Proc.devRef .tc main_v34))
    (W1 m c (Proc.devRef .tc main_v35)) (W1 m c (Proc.devRef .tc main_v36)) (W1 m c (Proc.devRef .tc main_v37))
    (W1 m c (Proc.devRef .tc main_v30)) (W1 m c (Proc.devRef .tc main_v38))
    (argW1 m c) (argB1 m c) (argGa m c) (argBe m c) (argRm m c) (argRv m c) (argW2 m c) (argB2 m c)
    (fun i k => host0_W1 (W0 m c) i k) (fun k => host0_b1 (W0 m c) 0 k) (fun k => host0_gamma (W0 m c) 0 k)
    (fun k => host0_beta (W0 m c) 0 k) (fun k => host0_rm (W0 m c) 0 k) (fun k => host0_rv (W0 m c) 0 k)
    (fun k q => host0_W2 (W0 m c) k q) (fun q => host0_b2 (W0 m c) 0 q)

theorem nodes0_eq (n : Fin 100000) (j : Fin 64) : nodes0 (V1 m) c (ix2 n j) = nodeArr (argX m c) n j :=
  congrFun (W1_launch m c main_arg0) (ix2 n j)

theorem sums0_eq (n : Fin 100000) (q : Fin 64) :
    sums0 (V1 m) c (ix2 n q) = agg (srcK m c) (hitK m c) (nodeArr (argX m c)) n q :=
  host0_agg (W0 m c) n q

theorem h1_wide (n : Fin 100000) (q : Fin 64) :
    (W2 m c (Proc.devRef .tc main_v39_0) : S100000x64.Idx → EReal) (ix2 n q) = H1 m c n q :=
  stage_array (srcK m c) (hitK m c) bnEps (layer0_eq m c) (nodeArr (argX m c))
    (nodes := nodes0 (V1 m) c) (sums := sums0 (V1 m) c) (nodes0_eq m c) (sums0_eq m c)
    ((W2_arr m c 10).trans (arr0_10 (V1 m) c)) n q

theorem h1_narrow (n : Fin 100000) (q : Fin 64) :
    (W2 m c (Proc.devRef .tc main_v39_1) : S100000x64.Idx → EReal) (ix2 n q) = H1 m c n q :=
  stage_array (srcK m c) (hitK m c) bnEps (layer0_eq m c) (nodeArr (argX m c))
    (nodes := nodes0 (V1 m) c) (sums := sums0 (V1 m) c) (nodes0_eq m c) (sums0_eq m c)
    ((W2_arr m c 11).trans (arr0_11 (V1 m) c)) n q

theorem layer1_eq : layer1 (V3 m) c = layK m c 1 :=
  layerOf_eq_layerAt 1
    (W3 m c (Proc.devRef .tc main_v52)) (W3 m c (Proc.devRef .tc main_v67)) (W3 m c (Proc.devRef .tc main_v68))
    (W3 m c (Proc.devRef .tc main_v69)) (W3 m c (Proc.devRef .tc main_v70)) (W3 m c (Proc.devRef .tc main_v71))
    (W3 m c (Proc.devRef .tc main_v64)) (W3 m c (Proc.devRef .tc main_v72))
    (argW1 m c) (argB1 m c) (argGa m c) (argBe m c) (argRm m c) (argRv m c) (argW2 m c) (argB2 m c)
    (fun i k => (host1_W1 (W2 m c) i k).trans (congrFun (W2_launch m c main_arg1) _))
    (fun k => (host1_b1 (W2 m c) 0 k).trans (congrFun (W2_launch m c main_arg2) _))
    (fun k => (host1_gamma (W2 m c) 0 k).trans (congrFun (W2_launch m c main_arg3) _))
    (fun k => (host1_beta (W2 m c) 0 k).trans (congrFun (W2_launch m c main_arg4) _))
    (fun k => (host1_rm (W2 m c) 0 k).trans (congrFun (W2_launch m c main_arg5) _))
    (fun k => (host1_rv (W2 m c) 0 k).trans (congrFun (W2_launch m c main_arg6) _))
    (fun k q => (host1_W2 (W2 m c) k q).trans (congrFun (W2_launch m c main_arg7) _))
    (fun q => (host1_b2 (W2 m c) 0 q).trans (congrFun (W2_launch m c main_arg8) _))

theorem nodes1_eq (n : Fin 100000) (j : Fin 64) : nodes1 (V3 m) c (ix2 n j) = H1 m c n j :=
  (congrFun (W3_keep m c main_v39_0) (ix2 n j)).trans (h1_wide m c n j)

theorem sums1_eq (n : Fin 100000) (q : Fin 64) :
    sums1 (V3 m) c (ix2 n q) = agg (srcK m c) (hitK m c) (H1 m c) n q := by
  have h := host1_agg (W2 m c) (argEdges m c)
    (fun e => (congrFun (W2_of_W1 m c main_v1) (ix1 e)).trans (v1_at_W1 m c e))
    (fun e => (congrFun (W2_of_W1 m c main_v3) (ix1 e)).trans (v3_at_W1 m c e)) n q
  have hx : nodeArr (W2 m c (Proc.devRef .tc main_v39_1)) = H1 m c := arr_ext fun n j => h1_narrow m c n j
  exact h.trans (congrFun (congrFun (agg_congr (srcK m c) (hitK m c) fun n j => congrFun (congrFun hx n) j) n) q)

theorem h2_wide (n : Fin 100000) (q : Fin 64) :
    (W4 m c (Proc.devRef .tc main_v73_0) : S100000x64.Idx → EReal) (ix2 n q) = H2 m c n q :=
  stage_array (srcK m c) (hitK m c) bnEps (layer1_eq m c) (H1 m c)
    (nodes := nodes1 (V3 m) c) (sums := sums1 (V3 m) c) (nodes1_eq m c) (sums1_eq m c)
    ((W4_arr m c 10).trans (arr1_10 (V3 m) c)) n q

theorem h2_narrow (n : Fin 100000) (q : Fin 64) :
    (W4 m c (Proc.devRef .tc main_v73_1) : S100000x64.Idx → EReal) (ix2 n q) = H2 m c n q :=
  stage_array (srcK m c) (hitK m c) bnEps (layer1_eq m c) (H1 m c)
    (nodes := nodes1 (V3 m) c) (sums := sums1 (V3 m) c) (nodes1_eq m c) (sums1_eq m c)
    ((W4_arr m c 11).trans (arr1_11 (V3 m) c)) n q

theorem layer2_eq : layer2 (V5 m) c = layK m c 2 :=
  layerOf_eq_layerAt 2
    (W5 m c (Proc.devRef .tc main_v86)) (W5 m c (Proc.devRef .tc main_v101)) (W5 m c (Proc.devRef .tc main_v102))
    (W5 m c (Proc.devRef .tc main_v103)) (W5 m c (Proc.devRef .tc main_v104)) (W5 m c (Proc.devRef .tc main_v105))
    (W5 m c (Proc.devRef .tc main_v98)) (W5 m c (Proc.devRef .tc main_v106))
    (argW1 m c) (argB1 m c) (argGa m c) (argBe m c) (argRm m c) (argRv m c) (argW2 m c) (argB2 m c)
    (fun i k => (host2_W1 (W4 m c) i k).trans (congrFun (W4_launch m c main_arg1) _))
    (fun k => (host2_b1 (W4 m c) 0 k).trans (congrFun (W4_launch m c main_arg2) _))
    (fun k => (host2_gamma (W4 m c) 0 k).trans (congrFun (W4_launch m c main_arg3) _))
    (fun k => (host2_beta (W4 m c) 0 k).trans (congrFun (W4_launch m c main_arg4) _))
    (fun k => (host2_rm (W4 m c) 0 k).trans (congrFun (W4_launch m c main_arg5) _))
    (fun k => (host2_rv (W4 m c) 0 k).trans (congrFun (W4_launch m c main_arg6) _))
    (fun k q => (host2_W2 (W4 m c) k q).trans (congrFun (W4_launch m c main_arg7) _))
    (fun q => (host2_b2 (W4 m c) 0 q).trans (congrFun (W4_launch m c main_arg8) _))

theorem nodes2_eq (n : Fin 100000) (j : Fin 64) : nodes2 (V5 m) c (ix2 n j) = H2 m c n j :=
  (congrFun (W5_keep m c main_v73_0) (ix2 n j)).trans (h2_wide m c n j)

theorem sums2_eq (n : Fin 100000) (q : Fin 64) :
    sums2 (V5 m) c (ix2 n q) = agg (srcK m c) (hitK m c) (H2 m c) n q := by
  have h := host2_agg (W4 m c) (argEdges m c)
    (fun e => (congrFun (W4_of_W1 m c main_v1) (ix1 e)).trans (v1_at_W1 m c e))
    (fun e => (congrFun (W4_of_W1 m c main_v3) (ix1 e)).trans (v3_at_W1 m c e)) n q
  have hx : nodeArr (W4 m c (Proc.devRef .tc main_v73_1)) = H2 m c := arr_ext fun n j => h2_narrow m c n j
  exact h.trans (congrFun (congrFun (agg_congr (srcK m c) (hitK m c) fun n j => congrFun (congrFun hx n) j) n) q)

theorem rows2_eq : rows2 (V5 m) c = H3 m c :=
  arr_ext fun n q => stage_read (srcK m c) (hitK m c) bnEps (layer2_eq m c) (H2 m c)
    (nodes := nodes2 (V5 m) c) (sums := sums2 (V5 m) c) (nodes2_eq m c) (sums2_eq m c) n q

theorem graphWord2_eq : graphWord2 (V5 m) c = batchWords (argBatch m c) :=
  funext fun n => (congrFun (W5_of_W1 m c main_v5) (ix2 n (0 : Fin 1))).trans (v5_at_W1 m c n 0)

theorem wc1_2_eq : wc1_2 (V5 m) c = mat (argWc1 m c) :=
  funext fun i => funext fun k => congrFun (W5_launch m c main_arg9) (ix2 i k)

theorem bc1_2_eq : bc1_2 (V5 m) c = vec (argBc1 m c) :=
  funext fun k => (host2_bc1 (W4 m c) 0 k).trans (congrFun (W4_launch m c main_arg10) (ix1 k))

theorem wc2_2_eq : wc2_2 (V5 m) c = mat (argWc2 m c) :=
  funext fun k => funext fun j => congrFun (W5_launch m c main_arg11) (ix2 k j)

theorem bc2_2_eq : bc2_2 (V5 m) c = vec (argBc2 m c) :=
  funext fun j => (host2_bc2 (W4 m c) 0 j).trans (congrFun (W4_launch m c main_arg12) (ix1 j))

theorem G2_eq (i : S128x10.Idx) :
    G2 (V5 m) c i = net (srcK m c) (hitK m c) (segK m c) bnEps (layK m c 0) (layK m c 1) (layK m c 2)
      (mat (argWc1 m c)) (vec (argBc1 m c)) (mat (argWc2 m c)) (vec (argBc2 m c)) (nodeArr (argX m c)) (i 0) (i 1) := by
  have hp : ∀ d, pool (seg2 (V5 m) c) (rows2 (V5 m) c) (i 0) d = pool (segK m c) (H3 m c) (i 0) d := fun d => by
    rw [rows2_eq]
    exact congrArg (fun w => pool (segOf w) (H3 m c) (i 0) d) (graphWord2_eq m c)
  unfold G2
  rw [wc1_2_eq, bc1_2_eq, wc2_2_eq, bc2_2_eq]
  exact congrFun (net_of_pooled (srcK m c) (hitK m c) (segK m c) bnEps (layK m c 0) (layK m c 1) (layK m c 2)
    (mat (argWc1 m c)) (vec (argBc1 m c)) (mat (argWc2 m c)) (vec (argBc2 m c)) (nodeArr (argX m c)) (i 0) hp) (i 1)

section pre

variable (hpre : Cert.Pre_KernelIdeal m)
include hpre

theorem layK_finite (k : Fin 3) : (layK m c k).Finite :=
  layerAt_finite_of_pre _ _ _ _ _ _ _ _ _ _ _ _ _ _ _ (hpre c) k

theorem H2_finite : ∀ n j, IsReal (H2 m c n j) :=
  layer2_finite (srcK m c) (hitK m c) bnEps_isReal bnEps_pos (layK_finite m c hpre 0) (layK_finite m c hpre 1)
    (nodeArr_finite_of_pre _ _ _ _ _ _ _ _ _ _ _ _ _ _ _ (hpre c))

theorem kernel_result :
    (W6 m c (Proc.devRef .tc main_v109) : S128x10.Idx → EReal) = fun i =>
      net (srcK m c) (hitK m c) (segK m c) bnEps (layK m c 0) (layK m c 1) (layK m c 2)
        (mat (argWc1 m c)) (vec (argBc1 m c)) (mat (argWc2 m c)) (vec (argBc2 m c)) (nodeArr (argX m c)) (i 0) (i 1) := by
  have hL : (layer2 (V5 m) c).Finite := by rw [layer2_eq]; exact layK_finite m c hpre 2
  have hx : ∀ n j, IsReal (nodes2 (V5 m) c (ix2 n j)) := fun n j => by
    rw [nodes2_eq]; exact H2_finite m c hpre n j
  have ha : ∀ n j, IsReal (sums2 (V5 m) c (ix2 n j)) := fun n j => by
    rw [sums2_eq]; exact agg_finite (srcK m c) (hitK m c) (H2_finite m c hpre) n j
  rw [show W6 m c (Proc.devRef .tc main_v109) = _ from W6_arr m c 15, arr2_15 (V5 m) c hL hx ha]
  exact funext fun i => G2_eq m c i

end pre

end Cert.KernelIdeal.HandValue

end
-- ==== Proof.RefBase.lean ====
import proofs.«405115_j6640019439791_2_alg».proof.Proof.Gen.ReferenceIdeal
import proofs.«405115_j6640019439791_2_alg».proof.Proof.Spec
import proofs.«405115_j6640019439791_2_alg».proof.Proof.EdgeMaps
import proofs.«405115_j6640019439791_2_alg».proof.Proof.LibEdgeAgg
import proofs.«405115_j6640019439791_2_alg».proof.Proof.Params
import Idealize.ShloMosaic.Lib.ValueLayout
import Idealize.ShloMosaic.Lib.IdealHost
import Idealize.ShloMosaic.Lib.StackMember

noncomputable section

namespace Cert.ReferenceIdeal.RefValue

open Cert.ReferenceIdeal Cert.ReferenceIdeal.Gen Idealize.ShloMosaic Idealize.ShloMosaic.ValueIdx
open Cert.EdgeMaps Cert.Params
open scoped BigOperators

section Layout
variable {α : Type}

theorem val_unless_one {n : Nat} (p : Fin n) : p.val = if n = 1 then 0 else p.val := by
  have := p.isLt; split <;> omega

/-- A vector laid as one row and spread down `G` rows reads at `(g, q)` the vector at `q`. -/
theorem rowBcast_apply {C G : Nat} (v : (⟨1, ![C]⟩ : Shape).Idx → α)
    (hb1 : (⟨1, ![C]⟩ : Shape).BroadcastsInDim ⟨2, ![1, C]⟩ ![1])
    (hb2 : (⟨2, ![1, C]⟩ : Shape).BroadcastsInDim ⟨2, ![G, C]⟩ ![0, 1]) (g : Fin G) (q : Fin C) :
    broadcastInDim ⟨2, ![G, C]⟩ ![0, 1] hb2 (broadcastInDim ⟨2, ![1, C]⟩ ![1] hb1 v) (ix2 g q) = v (ix1 q) :=
  (broadcastInDim_oneRow_apply hb2 _ g q).trans
    (broadcastInDim_apply ![1] hb1 v (ix2 (0 : Fin 1) q) (ix1 q) fun a => match a with | ⟨0, _⟩ => by exact val_unless_one q)

/-- A vector laid as one column reads at `(p, 0)` the vector at `p`. -/
theorem colWords_apply {P : Nat} (v : (⟨1, ![P]⟩ : Shape).Idx → α)
    (hb : (⟨1, ![P]⟩ : Shape).BroadcastsInDim ⟨2, ![P, 1]⟩ ![0]) (p : Fin P) :
    broadcastInDim ⟨2, ![P, 1]⟩ ![0] hb v (ix2 p (0 : Fin 1)) = v (ix1 p) :=
  broadcastInDim_apply ![0] hb v (ix2 p (0 : Fin 1)) (ix1 p) fun a => match a with | ⟨0, _⟩ => by exact val_unless_one p

/-- One column spread along `C` columns reads at `(g, q)` the column at `g`. -/
theorem colSpread_apply {C G : Nat} (y : (⟨2, ![G, 1]⟩ : Shape).Idx → α)
    (hb : (⟨2, ![G, 1]⟩ : Shape).BroadcastsInDim ⟨2, ![G, C]⟩ ![0, 1]) (g : Fin G) (q : Fin C) :
    broadcastInDim ⟨2, ![G, C]⟩ ![0, 1] hb y (ix2 g q) = y (ix2 g (0 : Fin 1)) :=
  broadcastInDim_apply ![0, 1] hb y (ix2 g q) (ix2 g (0 : Fin 1)) fun a => match a with
    | ⟨0, _⟩ => by exact val_unless_one g
    | ⟨1, _⟩ => by exact (if_pos rfl).symm

/-- Row `k` of a stacked `[R, C]` array, cut out and flattened, reads at `q` the array at `(k, q)`. -/
theorem cutVec_apply {R C : Nat} (k : Nat) (hk : k < R) (p : (⟨2, ![R, C]⟩ : Shape).Idx → α)
    (hs : (⟨2, ![R, C]⟩ : Shape).Slices ![k, 0] ⟨2, ![1, C]⟩)
    (hc : (⟨2, ![1, C]⟩ : Shape).ShapeCasts ⟨1, ![C]⟩) (q : Fin C) :
    shapeCast ⟨1, ![C]⟩ (extractStridedSlice ⟨2, ![1, C]⟩ ![k, 0] p hs) hc (ix1 q) = p (ix2 (⟨k, hk⟩ : Fin R) q) :=
  (shapeCast_1a_a_apply _ hc q).trans (slice2_axis0_apply k p hs (0 : Fin 1) q ⟨k, hk⟩ rfl)

/-- Row `k` of a stacked `[R, A, B]` array, cut out and flattened, reads at `(a, b)` the array at `(k, a, b)`. -/
theorem cutMat_apply {R A B : Nat} (k : Nat) (hk : k < R) (p : (⟨3, ![R, A, B]⟩ : Shape).Idx → α)
    (hs : (⟨3, ![R, A, B]⟩ : Shape).Slices ![k, 0, 0] ⟨3, ![1, A, B]⟩)
    (hc : (⟨3, ![1, A, B]⟩ : Shape).ShapeCasts ⟨2, ![A, B]⟩) (a : Fin A) (b : Fin B) :
    shapeCast ⟨2, ![A, B]⟩ (extractStridedSlice ⟨3, ![1, A, B]⟩ ![k, 0, 0] p hs) hc (ix2 a b)
      = p (ix3 (⟨k, hk⟩ : Fin R) a b) :=
  (shapeCast_1ab_ab_apply _ hc a b).trans
    (extractStridedSlice_apply ![k, 0, 0] p hs (ix3 (0 : Fin 1) a b) (ix3 (⟨k, hk⟩ : Fin R) a b) fun ax => match ax with
      | ⟨0, _⟩ => rfl
      | ⟨1, _⟩ => (Nat.zero_add _).symm
      | ⟨2, _⟩ => (Nat.zero_add _).symm)

end Layout

def zerosN : FVec Ideal S100000x64 .f32 :=
  broadcastInDim S100000x64 ![] bcast_S_S100000x64 (constant S_ .f32 0x00000000#32)

theorem zerosN_apply (i : S100000x64.Idx) : zerosN i = 0 := Ideal.ofBits_zero_f32

end Cert.ReferenceIdeal.RefValue

end
-- ==== Proof.RefMlp.lean ====
import proofs.«405115_j6640019439791_2_alg».proof.Proof.RefBase

noncomputable section

namespace Cert.ReferenceIdeal.RefValue

open Cert.ReferenceIdeal Cert.ReferenceIdeal.Gen Idealize.ShloMosaic Idealize.ShloMosaic.ValueIdx
open Cert.EdgeMaps Cert.Params Idealize.ShloMosaic.StackMember
open scoped BigOperators

variable (k : Nat) (hk : k < 3) (hsV : S3x64.Slices ![k, 0] S1x64) (hsM : S3x64x64.Slices ![k, 0, 0] S1x64x64)
  (x1 : FVec Ideal S3x64x64 .f32) (x2 x3 x4 x5 x6 : FVec Ideal S3x64 .f32) (x7 : FVec Ideal S3x64x64 .f32)
  (x8 : FVec Ideal S3x64 .f32)

/-- A `[64]` vector spread down the nodes. -/
def rows (v : FVec Ideal S64 .f32) : FVec Ideal S100000x64 .f32 :=
  broadcastInDim S100000x64 ![0, 1] bcast_S1x64_S100000x64_0_1 (broadcastInDim S1x64 ![1] bcast_S64_S1x64_1 v)

theorem rows_apply (v : FVec Ideal S64 .f32) (n : Fin 100000) (q : Fin 64) : rows v (ix2 n q) = v (ix1 q) :=
  rowBcast_apply v _ _ n q

/-- Row `k` of a stacked vector parameter. -/
def cutV (p : FVec Ideal S3x64 .f32) : FVec Ideal S64 .f32 :=
  shapeCast S64 (extractStridedSlice S1x64 ![k, 0] p hsV) shapeCasts_S1x64_S64

theorem cutV_apply (p : FVec Ideal S3x64 .f32) (q : Fin 64) : cutV k hsV p (ix1 q) = p (ix2 (⟨k, hk⟩ : Fin 3) q) :=
  cutVec_apply k hk p hsV _ q

/-- Row `k` of a stacked matrix parameter. -/
def cutM (p : FVec Ideal S3x64x64 .f32) : FVec Ideal S64x64 .f32 :=
  shapeCast S64x64 (extractStridedSlice S1x64x64 ![k, 0, 0] p hsM) shapeCasts_S1x64x64_S64x64

theorem cutM_apply (p : FVec Ideal S3x64x64 .f32) (a b : Fin 64) :
    cutM k hsM p (ix2 a b) = p (ix3 (⟨k, hk⟩ : Fin 3) a b) :=
  cutMat_apply k hk p hsM _ a b

def rsV (p : FVec Ideal S3x64 .f32) : FVec Ideal S64 .f32 :=
  Host.rsqrt (addf (cutV k hsV p) (broadcastInDim S64 ![] bcast_S_S64 (constant S_ .f32 0x3727C5AC#32)))

theorem rsV_apply (p : FVec Ideal S3x64 .f32) (q : Fin 64) :
    rsV k hsV p (ix1 q) = Ideal.rsqrt (p (ix2 (⟨k, hk⟩ : Fin 3) q) + bnEps) :=
  congrArg (fun t => Ideal.rsqrt (t + bnEps)) (cutV_apply k hk hsV p q)

theorem dotN_apply (y0 : FVec Ideal S100000x64 .f32) (y1 : FVec Ideal S64x64 .f32) (n : Fin 100000) (q : Fin 64) :
    Host.dotGeneral dot_S100000x64_S64x64_S100000x64_1_0_0_1_n_n none y0 y1 (ix2 n q)
      = ∑ k : Fin 64, y0 (ix2 n k) * y1 (ix2 k q) :=
  dotGeneral_plain_apply none y0 y1 n q

def mlpT (z : FVec Ideal S100000x64 .f32) : FVec Ideal S100000x64 .f32 :=
  addf (Host.dotGeneral dot_S100000x64_S64x64_S100000x64_1_0_0_1_n_n none
      (addf (mulf (mulf (rows (cutV k hsV x3))
          (subf (maximumf (addf (Host.dotGeneral dot_S100000x64_S64x64_S100000x64_1_0_0_1_n_n none z
              (cutM k hsM x1)) (rows (cutV k hsV x2))) zerosN) (rows (cutV k hsV x5))))
        (rows (rsV k hsV x6))) (rows (cutV k hsV x4)))
      (cutM k hsM x7)) (rows (cutV k hsV x8))

theorem mlpT_apply (z : FVec Ideal S100000x64 .f32) (n : Fin 100000) (q : Fin 64) :
    mlpT k hsV hsM x1 x2 x3 x4 x5 x6 x7 x8 z (ix2 n q)
      = Cert.Spec.mlp bnEps (layerAt ⟨k, hk⟩ x1 x2 x3 x4 x5 x6 x7 x8) (fun j => z (ix2 n j)) q := by
  unfold mlpT
  simp only [addf_apply, mulf_apply, subf_apply, maximumf_apply, dotN_apply, rows_apply, cutV_apply k hk,
    cutM_apply k hk, rsV_apply k hk, zerosN_apply]
  rfl

end Cert.ReferenceIdeal.RefValue

end
-- ==== Proof.RefAgg.lean ====
import proofs.«405115_j6640019439791_2_alg».proof.Proof.RefBase
import proofs.«405115_j6640019439791_2_alg».proof.Proof.Gen.ReferenceIdeal
import proofs.«405115_j6640019439791_2_alg».proof.Proof.Spec
import proofs.«405115_j6640019439791_2_alg».proof.Proof.EdgeMaps
import proofs.«405115_j6640019439791_2_alg».proof.Proof.LibEdgeAgg
import proofs.«405115_j6640019439791_2_alg».proof.Proof.Params

noncomputable section

namespace Cert.ReferenceIdeal.RefValue

open Cert.ReferenceIdeal Cert.ReferenceIdeal.Gen Idealize.ShloMosaic Idealize.ShloMosaic.ValueIdx
open Cert.EdgeMaps Cert.Params
open scoped BigOperators

def rowWords (r : Nat) (hs : S2x1600000.Slices ![r, 0] S1x1600000) (x13 : IVec S2x1600000 32) : IVec S1600000 32 :=
  shapeCast S1600000 (extractStridedSlice S1x1600000 ![r, 0] x13 hs) shapeCasts_S1x1600000_S1600000

def srcCol (x13 : IVec S2x1600000 32) : IVec S1600000x1 32 :=
  broadcastInDim S1600000x1 ![0] bcast_S1600000_S1600000x1_0
    (select (cmpi .slt (rowWords 0 slices_S2x1600000_S1x1600000_0_0 x13)
        (broadcastInDim S1600000 ![] bcast_S_S1600000 (constantI S_ 32 0#32)))
      (addi (rowWords 0 slices_S2x1600000_S1x1600000_0_0 x13)
        (broadcastInDim S1600000 ![] bcast_S_S1600000 (constantI S_ 32 100000#32)))
      (rowWords 0 slices_S2x1600000_S1x1600000_0_0 x13))

theorem srcCol_apply (x13 : IVec S2x1600000 32) (e : Fin 1600000) :
    srcCol x13 (ix2 e (0 : Fin 1)) = wrap (edgeWords x13 0 e) :=
  (colWords_apply _ bcast_S1600000_S1600000x1_0 e).trans ((select_eq_wrap _).trans
    (congrArg wrap (cutVec_apply 0 (by decide) x13 slices_S2x1600000_S1x1600000_0_0 _ e)))

def dstCol (x13 : IVec S2x1600000 32) : IVec S1600000x1 32 :=
  broadcastInDim S1600000x1 ![0] bcast_S1600000_S1600000x1_0 (rowWords 1 slices_S2x1600000_S1x1600000_1_0 x13)

theorem dstCol_apply (x13 : IVec S2x1600000 32) (e : Fin 1600000) :
    dstCol x13 (ix2 e (0 : Fin 1)) = edgeWords x13 1 e :=
  (colWords_apply _ bcast_S1600000_S1600000x1_0 e).trans
    (cutVec_apply 1 (by decide) x13 slices_S2x1600000_S1x1600000_1_0 _ e)

/-- The neighbour sum as the program spells it: the table's rows looked up along the edges and added up at their destinations. -/
def aggT (h : FVec Ideal S100000x64 .f32) (x13 : IVec S2x1600000 32) : FVec Ideal S100000x64 .f32 :=
  Host.scatterAdd scatter_S100000x64_S1600000x1_S1600000x64_1_0_0_1 zerosN (dstCol x13)
    (Host.gather gather_S100000x64_S1600000x1_S1600000x64_1_0_n_n_0_1_164 h (srcCol x13))

theorem aggT_eq (h : FVec Ideal S100000x64 .f32) (x13 : IVec S2x1600000 32) :
    aggT h x13 = Ideal.hostScatterAdd
      (EdgeAgg.accumDims 100000 64 1600000 Facts₀.scatter_S100000x64_S1600000x1_S1600000x64_1_0_0_1_wf) zerosN (dstCol x13)
      (Host.gather (EdgeAgg.lookupDims 100000 64 1600000 Facts₀.gather_S100000x64_S1600000x1_S1600000x64_1_0_n_n_0_1_164_wf)
        h (srcCol x13)) := rfl

theorem aggT_apply (h : FVec Ideal S100000x64 .f32) (x13 : IVec S2x1600000 32) (n : Fin 100000) (j : Fin 64) :
    aggT h x13 (ix2 n j) = Spec.agg (srcOf (edgeWords x13)) (hitOf (edgeWords x13)) (nodeArr h) n j := by
  rw [aggT_eq, EdgeAgg.accum_apply, zerosN_apply, zero_add]
  unfold Spec.agg
  refine Finset.sum_congr (Finset.filter_congr fun e _ => ?_) fun e _ => ?_
  · rw [dstCol_apply]
    exact Iff.rfl
  · rw [EdgeAgg.lookup_apply (N := 100000) (show 0 < 100000 by decide), srcCol_apply]
    rfl

end Cert.ReferenceIdeal.RefValue

end
-- ==== Proof.RefLayer.lean ====
import proofs.«405115_j6640019439791_2_alg».proof.Proof.RefMlp
import proofs.«405115_j6640019439791_2_alg».proof.Proof.RefAgg

noncomputable section

namespace Cert.ReferenceIdeal.RefValue

open Cert.ReferenceIdeal Cert.ReferenceIdeal.Gen Idealize.ShloMosaic Idealize.ShloMosaic.ValueIdx
open Cert.EdgeMaps Cert.Params
open scoped BigOperators

variable (k : Nat) (hk : k < 3) (hsV : S3x64.Slices ![k, 0] S1x64) (hsM : S3x64x64.Slices ![k, 0, 0] S1x64x64)
  (x1 : FVec Ideal S3x64x64 .f32) (x2 x3 x4 x5 x6 : FVec Ideal S3x64 .f32) (x7 : FVec Ideal S3x64x64 .f32)
  (x8 : FVec Ideal S3x64 .f32)

/-- One layer as the program spells it: the perceptron of the node array plus its neighbour sum. -/
def layerT (h : FVec Ideal S100000x64 .f32) (x13 : IVec S2x1600000 32) : FVec Ideal S100000x64 .f32 :=
  mlpT k hsV hsM x1 x2 x3 x4 x5 x6 x7 x8 (addf h (aggT h x13))

theorem nodeArr_layerT (h : FVec Ideal S100000x64 .f32) (x13 : IVec S2x1600000 32) :
    nodeArr (layerT k hsV hsM x1 x2 x3 x4 x5 x6 x7 x8 h x13)
      = Spec.layer (srcOf (edgeWords x13)) (hitOf (edgeWords x13)) bnEps (layerAt ⟨k, hk⟩ x1 x2 x3 x4 x5 x6 x7 x8)
          (nodeArr h) := by
  funext n q
  refine (mlpT_apply k hk hsV hsM x1 x2 x3 x4 x5 x6 x7 x8 _ n q).trans ?_
  simp only [addf_apply, aggT_apply]
  rfl

end Cert.ReferenceIdeal.RefValue

end
-- ==== Proof.RefTail.lean ====
import proofs.«405115_j6640019439791_2_alg».proof.Proof.RefBase
import Idealize.ShloMosaic.PureOps.Reduce

noncomputable section

namespace Cert.ReferenceIdeal.RefValue

open Cert.ReferenceIdeal Cert.ReferenceIdeal.Gen Idealize.ShloMosaic Idealize.ShloMosaic.ValueIdx
open Cert.EdgeMaps Cert.Params Idealize.ShloMosaic.StackMember
open scoped BigOperators

def zerosG : FVec Ideal S128x64 .f32 :=
  broadcastInDim S128x64 ![] bcast_S_S128x64 (constant S_ .f32 0x00000000#32)

theorem zerosG_apply (i : S128x64.Idx) : zerosG i = 0 := Ideal.ofBits_zero_f32

/-- The pooling as the program spells it: the node rows added up at their graph words. -/
def poolT (y : FVec Ideal S100000x64 .f32) (x14 : IVec S100000 32) : FVec Ideal S128x64 .f32 :=
  Host.scatterAdd scatter_S128x64_S100000x1_S100000x64_1_0_0_1 zerosG
    (broadcastInDim S100000x1 ![0] bcast_S100000_S100000x1_0 x14) y

theorem poolT_apply (y : FVec Ideal S100000x64 .f32) (x14 : IVec S100000 32) (g : Fin 128) (d : Fin 64) :
    poolT y x14 (ix2 g d) = Spec.pool (segOf (batchWords x14)) (nodeArr y) g d := by
  show Ideal.hostScatterAdd (EdgeAgg.accumDims 128 64 100000 scatter_S128x64_S100000x1_S100000x64_1_0_0_1_wf)
    zerosG _ y (ix2 g d) = _
  rw [EdgeAgg.accum_apply, zerosG_apply, zero_add]
  unfold Spec.pool
  exact Finset.sum_congr (Finset.filter_congr fun n _ => by rw [colWords_apply]; exact Iff.rfl) fun n _ => rfl

theorem dotG_apply (y0 : FVec Ideal S128x64 .f32) (y1 : FVec Ideal S64x64 .f32) (g : Fin 128) (q : Fin 64) :
    Host.dotGeneral dot_S128x64_S64x64_S128x64_1_0_0_1_n_n none y0 y1 (ix2 g q)
      = ∑ k : Fin 64, y0 (ix2 g k) * y1 (ix2 k q) :=
  dotGeneral_plain_apply none y0 y1 g q

theorem dotC_apply (y0 : FVec Ideal S128x64 .f32) (y1 : FVec Ideal S64x10 .f32) (g : Fin 128) (q : Fin 10) :
    Host.dotGeneral dot_S128x64_S64x10_S128x10_1_0_0_1_n_n none y0 y1 (ix2 g q)
      = ∑ k : Fin 64, y0 (ix2 g k) * y1 (ix2 k q) :=
  dotGeneral_plain_apply none y0 y1 g q

def logitsT (y : FVec Ideal S100000x64 .f32) (x9 : FVec Ideal S64x64 .f32) (x10 : FVec Ideal S64 .f32)
    (x11 : FVec Ideal S64x10 .f32) (x12 : FVec Ideal S10 .f32) (x14 : IVec S100000 32) : FVec Ideal S128x10 .f32 :=
  addf (Host.dotGeneral dot_S128x64_S64x10_S128x10_1_0_0_1_n_n none
      (maximumf (addf (Host.dotGeneral dot_S128x64_S64x64_S128x64_1_0_0_1_n_n none (poolT y x14) x9)
        (broadcastInDim S128x64 ![0, 1] bcast_S1x64_S128x64_0_1 (broadcastInDim S1x64 ![1] bcast_S64_S1x64_1 x10)))
        zerosG) x11)
    (broadcastInDim S128x10 ![0, 1] bcast_S1x10_S128x10_0_1 (broadcastInDim S1x10 ![1] bcast_S10_S1x10_1 x12))

theorem logitsT_apply (y : FVec Ideal S100000x64 .f32) (x9 : FVec Ideal S64x64 .f32) (x10 : FVec Ideal S64 .f32)
    (x11 : FVec Ideal S64x10 .f32) (x12 : FVec Ideal S10 .f32) (x14 : IVec S100000 32) (g : Fin 128) (j : Fin 10) :
    logitsT y x9 x10 x11 x12 x14 (ix2 g j)
      = Spec.logits (mat x9) (vec x10) (mat x11) (vec x12) (Spec.pool (segOf (batchWords x14)) (nodeArr y) g) j := by
  unfold logitsT
  simp only [addf_apply, maximumf_apply, dotC_apply, dotG_apply, poolT_apply, zerosG_apply,
    rowBcast_apply x10 bcast_S64_S1x64_1 bcast_S1x64_S128x64_0_1,
    rowBcast_apply x12 bcast_S10_S1x10_1 bcast_S1x10_S128x10_0_1]
  rfl

theorem lift_col (h : S128x10.Reduces [1] S128) (g : Fin 128) (k : Fin (S128x10.size 1)) :
    h.lift (ix1 g) k = ix2 g (⟨k.val, k.isLt⟩ : Fin 10) := by
  funext c; apply Fin.ext
  fin_cases c <;> rfl

def rowMaxT (l : FVec Ideal S128x10 .f32) : FVec Ideal S128 .f32 :=
  maximumf (broadcastInDim S128 ![] bcast_S_S128 (constant S_ .f32 0xFF800000#32))
    (Host.reduce FloatOps.maximumf l (constant S_ .f32 0xFF800000#32) reducesTo_S128x10_S128_d1 h_S_)

theorem rowMaxT_apply (l : FVec Ideal S128x10 .f32) (g : Fin 128) :
    rowMaxT l (ix1 g) = Finset.univ.sup' Finset.univ_nonempty (fun j : Fin 10 => l (ix2 g j)) := by
  have hbot : Ideal.ofBits .f32 0xFF800000#32 = (⊥ : EReal) := by simp [Ideal.ofBits, Ideal.ieee]
  have hf : (l ∘ (show S128x10.Reduces [1] S128 by decide).lift (ix1 g)) = fun j : Fin 10 => l (ix2 g j) :=
    funext fun k => congrArg l (lift_col _ g k)
  show max (Ideal.ofBits .f32 0xFF800000#32)
    (Host.reduce FloatOps.maximumf l (constant S_ .f32 0xFF800000#32) reducesTo_S128x10_S128_d1 h_S_ (ix1 g)) = _
  rw [Host.reduce_eq_fold_single FloatOps.maximumf l _ reducesTo_S128x10_S128_d1 (by decide) h_S_, constant_apply, hbot,
    Finset.sup'_eq_sup, hf, max_eq_right bot_le]
  rfl

theorem rowSum_apply (y : FVec Ideal S128x10 .f32) (g : Fin 128) :
    Host.reduceAdd y (constant S_ .f32 0x00000000#32) reducesTo_S128x10_S128_d1 h_S_ (ix1 g)
      = ∑ j : Fin 10, y (ix2 g j) := by
  rw [hostReduceAdd_apply, Ideal.hostReduceAdd_single reducesTo_S128x10_S128_d1 (by decide), constant_apply,
    Ideal.ofBits_zero_f32, zero_add]
  exact Finset.sum_congr rfl fun k _ => congrArg y (lift_col _ g k)

def shiftedT (l : FVec Ideal S128x10 .f32) : FVec Ideal S128x10 .f32 :=
  subf l (broadcastInDim S128x10 ![0, 1] bcast_S128x1_S128x10_0_1
    (broadcastInDim S128x1 ![0] bcast_S128_S128x1_0 (rowMaxT l)))

theorem shiftedT_apply (l : FVec Ideal S128x10 .f32) (g : Fin 128) (j : Fin 10) :
    shiftedT l (ix2 g j) = l (ix2 g j) - Finset.univ.sup' Finset.univ_nonempty (fun j : Fin 10 => l (ix2 g j)) := by
  unfold shiftedT
  rw [subf_apply, colSpread_apply, colWords_apply, rowMaxT_apply]

def logSoftmaxT (l : FVec Ideal S128x10 .f32) : FVec Ideal S128x10 .f32 :=
  subf (shiftedT l) (broadcastInDim S128x10 ![0, 1] bcast_S128x1_S128x10_0_1
    (Host.log (broadcastInDim S128x1 ![0] bcast_S128_S128x1_0
      (Host.reduceAdd (Host.exp (shiftedT l)) (constant S_ .f32 0x00000000#32) reducesTo_S128x10_S128_d1 h_S_))))

theorem logSoftmaxT_apply (l : FVec Ideal S128x10 .f32) (g : Fin 128) (j : Fin 10) :
    logSoftmaxT l (ix2 g j) = Spec.logSoftmax (fun j : Fin 10 => l (ix2 g j)) j := by
  unfold logSoftmaxT Spec.logSoftmax
  rw [subf_apply, shiftedT_apply, colSpread_apply]
  simp only [Host.log]
  rw [colWords_apply, rowSum_apply]
  exact congrArg (fun t => _ - Ideal.log t)
    (Finset.sum_congr rfl fun i _ => congrArg Ideal.exp (shiftedT_apply l g i))

end Cert.ReferenceIdeal.RefValue

end
-- ==== Proof.RefSpec.lean ====
import proofs.«405115_j6640019439791_2_alg».proof.Proof.RefRun
import proofs.«405115_j6640019439791_2_alg».proof.Proof.RefLayer
import proofs.«405115_j6640019439791_2_alg».proof.Proof.RefTail

noncomputable section

namespace Cert.ReferenceIdeal.RefValue

open Cert.ReferenceIdeal Cert.ReferenceIdeal.Gen Idealize.ShloMosaic Idealize.ShloMosaic.ValueIdx
open Cert.EdgeMaps Cert.Params Idealize.ShloMosaic.TcCoe Idealize.SL.Sem Idealize.ShloMosaic.StableHlo
open scoped BigOperators

variable (x0 : FVec Ideal S100000x64 .f32) (x1 : FVec Ideal S3x64x64 .f32) (x2 x3 x4 x5 x6 : FVec Ideal S3x64 .f32)
  (x7 : FVec Ideal S3x64x64 .f32) (x8 : FVec Ideal S3x64 .f32) (x9 : FVec Ideal S64x64 .f32) (x10 : FVec Ideal S64 .f32)
  (x11 : FVec Ideal S64x10 .f32) (x12 : FVec Ideal S10 .f32) (x13 : IVec S2x1600000 32) (x14 : IVec S100000 32)

def refT : FVec Ideal S128x10 .f32 :=
  logSoftmaxT (logitsT
    (layerT 2 slices_S3x64_S1x64_2_0 slices_S3x64x64_S1x64x64_2_0_0 x1 x2 x3 x4 x5 x6 x7 x8
      (layerT 1 slices_S3x64_S1x64_1_0 slices_S3x64x64_S1x64x64_1_0_0 x1 x2 x3 x4 x5 x6 x7 x8
        (layerT 0 slices_S3x64_S1x64_0_0 slices_S3x64x64_S1x64x64_0_0_0 x1 x2 x3 x4 x5 x6 x7 x8 x0 x13) x13) x13)
    x9 x10 x11 x12 x14)

theorem refT_eq_net :
    refT x0 x1 x2 x3 x4 x5 x6 x7 x8 x9 x10 x11 x12 x13 x14
      = fun i => Spec.net (srcOf (edgeWords x13)) (hitOf (edgeWords x13)) (segOf (batchWords x14)) bnEps
          (layerAt 0 x1 x2 x3 x4 x5 x6 x7 x8) (layerAt 1 x1 x2 x3 x4 x5 x6 x7 x8) (layerAt 2 x1 x2 x3 x4 x5 x6 x7 x8)
          (mat x9) (vec x10) (mat x11) (vec x12) (nodeArr x0) (i 0) (i 1) := by
  funext i
  obtain ⟨g, j, rfl⟩ : ∃ g j, i = ix2 g j := ⟨i 0, i 1, eq_ix2 i⟩
  unfold refT
  rw [logSoftmaxT_apply]
  simp only [logitsT_apply, nodeArr_layerT 0 (by decide), nodeArr_layerT 1 (by decide), nodeArr_layerT 2 (by decide)]
  rfl

/-- The composed term unfolds to the spelt program of the arguments, which is the network. -/
theorem res_eq_net (m' : (ℓ : Loc nD τ sig) → Buf (Elt Ideal) ℓ) (c : Dev nD) :
    (Cert.ReferenceIdeal.Value.res_out0 (F := Ideal) m' c : S128x10.Idx → EReal)
      = fun i => Spec.net (srcOf (edgeWords (m' ((c.tc : Thread nD τ).loc main_arg13))))
          (hitOf (edgeWords (m' ((c.tc : Thread nD τ).loc main_arg13))))
          (segOf (batchWords (m' ((c.tc : Thread nD τ).loc main_arg14)))) bnEps
          (layerAt 0 (m' ((c.tc : Thread nD τ).loc main_arg1)) (m' ((c.tc : Thread nD τ).loc main_arg2))
            (m' ((c.tc : Thread nD τ).loc main_arg3)) (m' ((c.tc : Thread nD τ).loc main_arg4))
            (m' ((c.tc : Thread nD τ).loc main_arg5)) (m' ((c.tc : Thread nD τ).loc main_arg6))
            (m' ((c.tc : Thread nD τ).loc main_arg7)) (m' ((c.tc : Thread nD τ).loc main_arg8)))
          (layerAt 1 (m' ((c.tc : Thread nD τ).loc main_arg1)) (m' ((c.tc : Thread nD τ).loc main_arg2))
            (m' ((c.tc : Thread nD τ).loc main_arg3)) (m' ((c.tc : Thread nD τ).loc main_arg4))
            (m' ((c.tc : Thread nD τ).loc main_arg5)) (m' ((c.tc : Thread nD τ).loc main_arg6))
            (m' ((c.tc : Thread nD τ).loc main_arg7)) (m' ((c.tc : Thread nD τ).loc main_arg8)))
          (layerAt 2 (m' ((c.tc : Thread nD τ).loc main_arg1)) (m' ((c.tc : Thread nD τ).loc main_arg2))
            (m' ((c.tc : Thread nD τ).loc main_arg3)) (m' ((c.tc : Thread nD τ).loc main_arg4))
            (m' ((c.tc : Thread nD τ).loc main_arg5)) (m' ((c.tc : Thread nD τ).loc main_arg6))
            (m' ((c.tc : Thread nD τ).loc main_arg7)) (m' ((c.tc : Thread nD τ).loc main_arg8)))
          (mat (m' ((c.tc : Thread nD τ).loc main_arg9))) (vec (m' ((c.tc : Thread nD τ).loc main_arg10)))
          (mat (m' ((c.tc : Thread nD τ).loc main_arg11))) (vec (m' ((c.tc : Thread nD τ).loc main_arg12)))
          (nodeArr (m' ((c.tc : Thread nD τ).loc main_arg0))) (i 0) (i 1) := by
  refine Eq.trans ?_ (refT_eq_net ..)
  rfl

end Cert.ReferenceIdeal.RefValue

end
-- ==== Proof.lean ====
import proofs.«405115_j6640019439791_2_alg».proof.Defs
import proofs.«405115_j6640019439791_2_alg».proof.Proof.Gen.Kernel
import proofs.«405115_j6640019439791_2_alg».proof.Proof.Gen.KernelIdeal
import proofs.«405115_j6640019439791_2_alg».proof.Proof.Gen.ReferenceIdeal
import proofs.«405115_j6640019439791_2_alg».proof.Proof.Gen.Pre_finite_inputs
import proofs.«405115_j6640019439791_2_alg».proof.Proof.K_Frame
import proofs.«405115_j6640019439791_2_alg».proof.Proof.KI_Frame
import proofs.«405115_j6640019439791_2_alg».proof.Proof.KI_Net
import proofs.«405115_j6640019439791_2_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem
open Cert.Params Cert.EdgeMaps

open Cert.KernelIdeal in
def netOf (m : (ℓ : Loc nD τ sig) → Buf (Elt Ideal) ℓ) (c : Dev nD) :
    Buf (Elt Ideal) ((c.tc : Thread nD τ).loc main_v109) :=
  let a := fun (r : Ref sig .tc) => m ((c.tc : Thread nD τ).loc r)
  fun i => Cert.Spec.net (srcOf (edgeWords (a main_arg13))) (hitOf (edgeWords (a main_arg13)))
    (segOf (batchWords (a main_arg14))) bnEps
    (layerAt 0 (a main_arg1) (a main_arg2) (a main_arg3) (a main_arg4) (a main_arg5) (a main_arg6) (a main_arg7) (a main_arg8))
    (layerAt 1 (a main_arg1) (a main_arg2) (a main_arg3) (a main_arg4) (a main_arg5) (a main_arg6) (a main_arg7) (a main_arg8))
    (layerAt 2 (a main_arg1) (a main_arg2) (a main_arg3) (a main_arg4) (a main_arg5) (a main_arg6) (a main_arg7) (a main_arg8))
    (mat (a main_arg9)) (vec (a main_arg10)) (mat (a main_arg11)) (vec (a main_arg12))
    (nodeArr (a main_arg0)) (i 0) (i 1)

theorem frame_k : Cert.frame_Kernel := fun m ρ _ =>
  (θ_run Cert.Kernel.defs _ _).mono (fun _ h c => (h c).2) (Cert.Kernel.Hand.run_result m ρ)
theorem frame_ki : Cert.frame_KernelIdeal := fun m ρ _ =>
  (θ_run Cert.KernelIdeal.defs _ _).mono (fun _ h c => (h c).2) (Cert.KernelIdeal.Hand.run_result (F := Ideal) m ρ)
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := IdealRules.truncf_extf.statement _ .f32 .bf16

theorem algebraic : Cert.algebraic_KernelIdeal_ReferenceIdeal := by
  intro m ρ m' ρ' hpre hagree
  refine ⟨netOf m, ?_, ?_⟩
  · exact (θ_run Cert.KernelIdeal.defs _ _).mono
      (fun r h c => ⟨(h c).1.trans (Cert.KernelIdeal.HandValue.kernel_result m c hpre), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.res_eq_net m' c).trans ?_
    obtain ⟨h0, h1, h2, h3, h4, h5, h6, h7, h8, h9, h10, h11, h12, h13, h14⟩ := hagree c
    rw [h0, h1, h2, h3, h4, h5, h6, h7, h8, h9, h10, h11, h12, h13, h14]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
